-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x10 : Shape := ⟨2, ![96, 10]⟩
abbrev S10 : Shape := ⟨1, ![10]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S96 .f32) (main_arg7 : FVec F S96x10 .f32) (main_arg8 : FVec F S10 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x10 .f32 := Host.absf main_arg7
  let main_cst_8 : FVec F S_ .f32 := constant S_ .f32 0x7F800000#32
  let main_v25 : FVec F S96x10 .f32 := broadcastInDim S96x10 ![] bcast_S_S96x10 main_cst_8
  let main_v26 : IVec S96x10 1 := cmpf .olt main_v24 main_v25
  let main_c_9 : IVec S_ 1 := constantI S_ 1 1#1
  let main_v27 : IVec S_ 1 := (fun x v => Host.reduce IntOp.andi x v reducesTo_S96x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : IVec S50000 32) (main_arg3 : FVec F S96x96 .f32) (main_arg4 : FVec F S96 .f32) (main_arg5 : FVec F S96x96 .f32) (main_arg6 : FVec F S96 .f32) (main_arg7 : FVec F S96x10 .f32) (main_arg8 : FVec F S10 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S5000x96 : Shape := ⟨2, ![5000, 96]⟩
abbrev S5000x1 : Shape := ⟨2, ![5000, 1]⟩
abbrev S800000x96 : Shape := ⟨2, ![800000, 96]⟩
abbrev S1x96 : Shape := ⟨2, ![1, 96]⟩
abbrev S1x10 : Shape := ⟨2, ![1, 10]⟩
abbrev S64x10 : Shape := ⟨2, ![64, 10]⟩
abbrev S64x96 : Shape := ⟨2, ![64, 96]⟩
abbrev S64x1 : Shape := ⟨2, ![64, 1]⟩
abbrev S5000x64 : Shape := ⟨2, ![5000, 64]⟩

abbrev nBuf : Space → Nat
  | .hbm => 84
  | .vmem => 45
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000, .i32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x10, .f32⟩
  | .hbm, ⟨8, _⟩ => ⟨S10, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x1, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .i32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .i32⟩
  | .hbm, ⟨46, _⟩ => ⟨S50000x96, .f32⟩
  | .hbm, ⟨47, _⟩ => ⟨S50000x96, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .bf16⟩
  | .hbm, ⟨57, _⟩ => ⟨S800000x96, .f32⟩
  | .hbm, ⟨58, _⟩ => ⟨S_, .f32⟩
  | .hbm, ⟨59, _⟩ => ⟨S50000x96, .f32⟩
  | .hbm, ⟨60, _⟩ => ⟨S800000x1, .i32⟩
  | .hbm, ⟨61, _⟩ => ⟨S50000x96, .f32⟩
  | .hbm, ⟨62, _⟩ => ⟨S1x96, .f32⟩
  | .hbm, ⟨63, _⟩ => ⟨S50000x96, .f32⟩
  | .hbm, ⟨64, _⟩ => ⟨S50000x96, .f32⟩
  | .hbm, ⟨65, _⟩ => ⟨S50000x96, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x96, .bf16⟩
  | .hbm, ⟨75, _⟩ => ⟨S800000x96, .f32⟩
  | .hbm, ⟨76, _⟩ => ⟨S_, .f32⟩
  | .hbm, ⟨77, _⟩ => ⟨S50000x96, .f32⟩
  | .hbm, ⟨78, _⟩ => ⟨S800000x1, .i32⟩
  | .hbm, ⟨79, _⟩ => ⟨S50000x96, .f32⟩
  | .hbm, ⟨80, _⟩ => ⟨S1x96, .f32⟩
  | .hbm, ⟨81, _⟩ => ⟨S50000x96, .f32⟩
  | .hbm, ⟨82, _⟩ => ⟨S1x10, .f32⟩
  | .hbm, ⟨83, _⟩ => ⟨S64x10, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x1, .f32⟩
  | .local _ .vmem, ⟨4, _⟩ => ⟨S5000x1, .f32⟩
  | .local _ .vmem, ⟨5, _⟩ => ⟨S5000x96, .f32⟩
  | .local _ .vmem, ⟨6, _⟩ => ⟨S5000x96, .f32⟩
  | .local _ .vmem, ⟨7, _⟩ => ⟨S5000x96, .bf16⟩
  | .local _ .vmem, ⟨8, _⟩ => ⟨S5000x96, .bf16⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x1, .f32⟩
  | .local _ .vmem, ⟨14, _⟩ => ⟨S5000x1, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S96x96, .f32⟩
  | .local _ .vmem, ⟨21, _⟩ => ⟨S5000x1, .f32⟩
  | .local _ .vmem, ⟨22, _⟩ => ⟨S5000x1, .f32⟩
  | .local _ .vmem, ⟨23, _⟩ => ⟨S5000x96, .f32⟩
  | .local _ .vmem, ⟨24, _⟩ => ⟨S5000x96, .f32⟩
  | .local _ .vmem, ⟨25, _⟩ => ⟨S5000x96, .bf16⟩
  | .local _ .vmem, ⟨26, _⟩ => ⟨S5000x96, .bf16⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x1, .f32⟩
  | .local _ .vmem, ⟨32, _⟩ => ⟨S5000x1, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S5000x1, .i32⟩
  | .local _ .vmem, ⟨39, _⟩ => ⟨S5000x1, .i32⟩
  | .local _ .vmem, ⟨40, _⟩ => ⟨S96x10, .f32⟩
  | .local _ .vmem, ⟨41, _⟩ => ⟨S1x10, .f32⟩
  | .local _ .vmem, ⟨42, _⟩ => ⟨S64x10, .f32⟩
  | .local _ .vmem, ⟨43, _⟩ => ⟨S64x96, .f32⟩
  | .local _ .vmem, ⟨44, _⟩ => ⟨S64x1, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_v0 : Ref sig .tc := ⟨.hbm, 25, rfl⟩
abbrev main_call0_v1_0 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_scratch0 : Ref sig .tc := ⟨.vmem, 43, rfl⟩
abbrev cc4_scratch1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x96 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  packedbf16_S5000x96_S5000x96_0_0 : (Rect.unit (s := S5000x96) ![0, 0] S5000x96.size inb_S5000x96_S5000x96_0_0).PackedRows (EltTy.packing .bf16)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S10_S1x10 : S10.ShapeCasts S1x10
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x96 : S64x1.Broadcasts S64x96
  inb_S96x10_S96x10_0_0 : ∀ a, (![0, 0] : Fin 2 → Nat) a + S96x10.size a ≤ S96x10.size a
  h_S96x10 : 0 < S96x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  gather_S800000_S800000x1_S800000_n_0_n_n_0_1_1_wf : GatherDims.WF S800000 S800000x1 S800000 [] [0] [] [0] [] 1 ![1]
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x64_S5000x96_S64x96_0_0_1_1_n_n_wf : DotDims.WF S5000x64 S5000x96 S64x96 [0] [0] [1] [1] [] []
  dot_S5000x64_S5000x1_S64x1_0_0_1_1_n_n_wf : DotDims.WF S5000x64 S5000x1 S64x1 [0] [0] [1] [1] [] []
  dot_S64x96_S96x10_S64x10_1_0_0_1_n_n_wf : DotDims.WF S64x96 S96x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .bf16 = 32 ∨ (Rect.block (s := S50000x96) S5000x96.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .bf16 = 32 ∨ (Rect.block (s := S50000x96) S5000x96.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x10.size a ≤ S96x10.size a
  hwx4_2 : ∀ i : grid4.Coords, EltTy.bits .f32 = 32 ∨ (Rect.block (s := S96x10) S96x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x64_S5000x96_S64x96_0_0_1_1_n_n : DotDims S5000x64 S5000x96 S64x96 where
  lhsContracting := [0]
  rhsContracting := [0]
  lhsNonContracting := [1]
  rhsNonContracting := [1]
  lhsBatch := []
  rhsBatch := []
  wf := dot_S5000x64_S5000x96_S64x96_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x96_S96x10_S64x10_1_0_0_1_n_n : DotDims S64x96 S96x10 S64x10 where
  lhsContracting := [1]
  rhsContracting := [0]
  lhsNonContracting := [0]
  rhsNonContracting := [1]
  lhsBatch := []
  rhsBatch := []
  wf := dot_S64x96_S96x10_S64x10_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S5000x96.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S5000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28_0) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42_0) S5000x96.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42_1) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42_0) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S96x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S64x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S96x96 : Shape := ⟨2, ![96, 96]⟩
abbrev S96 : Shape := ⟨1, ![96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S64x96 : Shape := ⟨2, ![64, 96]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S96x96, .f32⟩
  | 4 => ⟨S96, .f32⟩
  | 5 => ⟨S96x96, .f32⟩
  | 6 => ⟨S96, .f32⟩
  | 7 => ⟨S96x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S50000x96, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x96, .f32⟩
  | 52 => ⟨S800000x1, .f32⟩
  | 53 => ⟨S800000x96, .f32⟩
  | 54 => ⟨S800000x96, .f32⟩
  | 55 => ⟨S_, .f32⟩
  | 56 => ⟨S50000x96, .f32⟩
  | 57 => ⟨S800000x1, .i32⟩
  | 58 => ⟨S50000x96, .f32⟩
  | 59 => ⟨S50000, .f32⟩
  | 60 => ⟨S50000x1, .f32⟩
  | 61 => ⟨S50000x96, .f32⟩
  | 62 => ⟨S50000x96, .f32⟩
  | 63 => ⟨S50000x96, .f32⟩
  | 64 => ⟨S1x96, .f32⟩
  | 65 => ⟨S50000x96, .f32⟩
  | 66 => ⟨S50000x96, .f32⟩
  | 67 => ⟨S_, .f32⟩
  | 68 => ⟨S50000x96, .f32⟩
  | 69 => ⟨S50000x96, .f32⟩
  | 70 => ⟨S50000x96, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x96, .f32⟩
  | 109 => ⟨S800000x1, .f32⟩
  | 110 => ⟨S800000x96, .f32⟩
  | 111 => ⟨S800000x96, .f32⟩
  | 112 => ⟨S_, .f32⟩
  | 113 => ⟨S50000x96, .f32⟩
  | 114 => ⟨S800000x1, .i32⟩
  | 115 => ⟨S50000x96, .f32⟩
  | 116 => ⟨S50000, .f32⟩
  | 117 => ⟨S50000x1, .f32⟩
  | 118 => ⟨S50000x96, .f32⟩
  | 119 => ⟨S50000x96, .f32⟩
  | 120 => ⟨S50000x96, .f32⟩
  | 121 => ⟨S1x96, .f32⟩
  | 122 => ⟨S50000x96, .f32⟩
  | 123 => ⟨S50000x96, .f32⟩
  | 124 => ⟨S_, .f32⟩
  | 125 => ⟨S50000x96, .f32⟩
  | 126 => ⟨S50000x96, .f32⟩
  | 127 => ⟨S_, .f32⟩
  | _ => ⟨S50000x96, .f32⟩

abbrev hbmTy0_1 (i : Nat) : BufTy := match i % 128 with
  | 0 => ⟨S64x96, .f32⟩
  | 1 => ⟨S50000x1, .i32⟩
  | 2 => ⟨S64x96, .f32⟩
  | 3 => ⟨S_, .f32⟩
  | 4 => ⟨S50000, .f32⟩
  | 5 => ⟨S_, .f32⟩
  | 6 => ⟨S64, .f32⟩
  | 7 => ⟨S50000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x96, .f32⟩
  | 14 => ⟨S64x96, .f32⟩
  | 15 => ⟨S64x10, .f32⟩
  | 16 => ⟨S1x10, .f32⟩
  | 17 => ⟨S64x10, .f32⟩
  | 18 => ⟨S64x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  dot_S64x96_S96x10_S64x10_1_0_0_1_n_n_wf : DotDims.WF S64x96 S96x10 S64x10 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x96_S96x10_S64x10_1_0_0_1_n_n : DotDims S64x96 S96x10 S64x10 where
  lhsContracting := [1]
  rhsContracting := [0]
  lhsNonContracting := [0]
  rhsNonContracting := [1]
  lhsBatch := []
  rhsBatch := []
  wf := dot_S64x96_S96x10_S64x10_1_0_0_1_n_n_wf

class Facts : Prop extends Facts₀ where

variable [Facts]
-- ==== Proof.K.Reg0.lean ====
import proofs.«419602_j28836410425874_3_alg».proof.Proof.Gen.Kernel.Launch
import proofs.«419602_j28836410425874_3_alg».proof.Proof.Gen.Kernel.Skeleton
import proofs.«419602_j28836410425874_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_x : Rect S5000x96 := Rect.unit (s := S5000x96) ![0, 0] S5000x96.size inb_S5000x96_S5000x96_0_0
abbrev rect0_w : Rect S96x96 := Rect.unit (s := S96x96) ![0, 0] S96x96.size inb_S96x96_S96x96_0_0
abbrev rect0_d : Rect S5000x1 := Rect.unit (s := S5000x1) ![0, 0] S5000x1.size inb_S5000x1_S5000x1_0_0

def out0_3 (x0 : Vec F S5000x96 .f32) (x1 : Vec F S96x96 .f32) : Vec F S5000x96 .f32 :=
  View.canon [⟨rect0_x, k0_pay1 (View.ld x0 rect0_x) (View.ld x1 rect0_w)⟩]

def out0_4 (x0 : Vec F S5000x96 .f32) (x1 : Vec F S96x96 .f32) (x2 : Vec F S5000x1 .f32) : Vec F S5000x96 .bf16 :=
  View.canon [⟨rect0_x, k0_pay2 (View.ld x0 rect0_x) (View.ld x1 rect0_w) (View.ld x2 rect0_d)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem body_obligation0 (c : Dev nD) : BodyObligation (dat0 (F := F) V c) (defs₀ (F := F)) Variants.none () Set.univ := by
  intro t
  simp only [bigSep_W0, after0_0, after0_1, after0_2, after0_3, after0_4,
    (show ∀ d, _ = iblk0 V c 0 t from (dat0 V c).before_in_eq_fetched 0 rfl (fun _ => rfl) (fun _ _ _ => rfl) (fun _ => rfl) t),
    (show ∀ d, _ = iblk0 V c 1 t from (dat0 V c).before_in_eq_fetched 1 rfl (fun _ => rfl) (fun _ _ _ => rfl) (fun _ => rfl) t),
    (show ∀ d, _ = iblk0 V c 2 t from (dat0 V c).before_in_eq_fetched 2 rfl (fun _ => rfl) (fun _ _ _ => rfl) (fun _ => rfl) t)]
  rw [show (dat0 V c).Φ t.succ = (dat0 V c).Φ t.castSucc from rfl, show (dat0 V c).owesAt () t.succ = (dat0 V c).owesAt () t.castSucc from rfl]
  change _ ⊢ wp _ _ _ (bodyAt0 t) _
  unfold bodyAt0
  rw [cc0__matmul_scale_kernel_eq_skeleton]
  unfold cc0__matmul_scale_kernel_skel owns
  iintro ⟨HΦ, Ho, ⟨%d0, %f1, %e1, B1⟩, ⟨%d1, %f2, %e2, B2⟩, ⟨%d2, %f3, %e3, B3⟩, ⟨%d3, %f4, -, B4⟩, ⟨%d4, %f5, -, B5⟩⟩
  rw [← e1, ← e2, ← e3]
  sl_exec
  sl_step
  iframe HΦ Ho
  isplitl [B1]; · iexists f1; iframe B1; ipureintro; rfl
  isplitl [B2]; · iexists f2; iframe B2; ipureintro; rfl
  isplitl [B3]; · iexists f3; iframe B3; ipureintro; rfl
  isplitl [B4]
  · iexists _; iframe B4; ipureintro
    exact View.read_writes_eq_canon _ _ _ (View.cover_of_tiled _ S5000x96.size (by rfl))
  · iexists _; iframe B5; ipureintro
    exact View.read_writes_eq_canon _ _ _ (View.cover_of_tiled _ S5000x96.size (by rfl))

end Cert.Kernel.Fr

end
-- ==== Proof.K.Reg1.lean ====
import proofs.«419602_j28836410425874_3_alg».proof.Proof.Gen.Kernel.Launch
import proofs.«419602_j28836410425874_3_alg».proof.Proof.Gen.Kernel.Skeleton
import proofs.«419602_j28836410425874_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_x : Rect S5000x96 := Rect.unit (s := S5000x96) ![0, 0] S5000x96.size inb_S5000x96_S5000x96_0_0

abbrev rect1_d : Rect S5000x1 := Rect.unit (s := S5000x1) ![0, 0] S5000x1.size inb_S5000x1_S5000x1_0_0

abbrev rect1_b : Rect S1x96 := Rect.unit (s := S1x96) ![0, 0] S1x96.size inb_S1x96_S1x96_0_0

def out1_4 (x0 x1 : Vec F S5000x96 .f32) (x2 : Vec F S5000x1 .f32) (x3 : Vec F S1x96 .f32) : Vec F S5000x96 .f32 :=
  View.canon [⟨rect1_x, k1_pay1 (View.ld x0 rect1_x) (View.ld x1 rect1_x) (View.ld x2 rect1_d) (View.ld x3 rect1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

theorem body_obligation1 (c : Dev nD) : BodyObligation (dat1 (F := F) V c) (defs₀ (F := F)) Variants.none () Set.univ := by
  intro t
  simp only [bigSep_W1, after1_0, after1_1, after1_2, after1_3, after1_4,
    (show ∀ d, _ = iblk1 V c 0 t from (dat1 V c).before_in_eq_fetched 0 rfl (fun _ => rfl) (fun _ _ _ => rfl) (fun _ => rfl) t),
    (show ∀ d, _ = iblk1 V c 1 t from (dat1 V c).before_in_eq_fetched 1 rfl (fun _ => rfl) (fun _ _ _ => rfl) (fun _ => rfl) t),
    (show ∀ d, _ = iblk1 V c 2 t from (dat1 V c).before_in_eq_fetched 2 rfl (fun _ => rfl) (fun _ _ _ => rfl) (fun _ => rfl) t),
    (show ∀ d, _ = iblk1 V c 3 t from (dat1 V c).before_in_eq_fetched 3 rfl (fun _ => rfl) (fun _ _ _ => rfl) (fun _ => rfl) t)]
  rw [show (dat1 V c).Φ t.succ = (dat1 V c).Φ t.castSucc from rfl, show (dat1 V c).owesAt () t.succ = (dat1 V c).owesAt () t.castSucc from rfl]
  change _ ⊢ wp _ _ _ (bodyAt1 t) _
  unfold bodyAt1
  rw [cc1__combine_kernel_eq_skeleton]
  unfold cc1__combine_kernel_skel owns
  iintro ⟨HΦ, Ho, ⟨%d0, %f0, %e0, H0⟩, ⟨%d1, %f1, %e1, H1⟩, ⟨%d2, %f2, %e2, H2⟩, ⟨%d3, %f3, %e3, H3⟩, ⟨%d4, %f4, -, H4⟩⟩
  rw [← e0, ← e1, ← e2, ← e3]
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x96.size (by rfl))

end Cert.Kernel.Fr

end
-- ==== Proof.K.Reg2.lean ====
import proofs.«419602_j28836410425874_3_alg».proof.Proof.Gen.Kernel.Launch
import proofs.«419602_j28836410425874_3_alg».proof.Proof.Gen.Kernel.Skeleton
import proofs.«419602_j28836410425874_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_x : Rect S5000x96 := Rect.unit (s := S5000x96) ![0, 0] S5000x96.size inb_S5000x96_S5000x96_0_0
abbrev rect2_w : Rect S96x96 := Rect.unit (s := S96x96) ![0, 0] S96x96.size inb_S96x96_S96x96_0_0
abbrev rect2_d : Rect S5000x1 := Rect.unit (s := S5000x1) ![0, 0] S5000x1.size inb_S5000x1_S5000x1_0_0

def out2_3 (x0 : Vec F S5000x96 .f32) (x1 : Vec F S96x96 .f32) : Vec F S5000x96 .f32 :=
  View.canon [⟨rect2_x, k2_pay1 (View.ld x0 rect2_x) (View.ld x1 rect2_w)⟩]

def out2_4 (x0 : Vec F S5000x96 .f32) (x1 : Vec F S96x96 .f32) (x2 : Vec F S5000x1 .f32) : Vec F S5000x96 .bf16 :=
  View.canon [⟨rect2_x, k2_pay2 (View.ld x0 rect2_x) (View.ld x1 rect2_w) (View.ld x2 rect2_d)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem body_obligation2 (c : Dev nD) : BodyObligation (dat2 (F := F) V c) (defs₀ (F := F)) Variants.none () Set.univ := by
  intro t
  simp only [bigSep_W2, after2_0, after2_1, after2_2, after2_3, after2_4,
    (show ∀ d, _ = iblk2 V c 0 t from (dat2 V c).before_in_eq_fetched 0 rfl (fun _ => rfl) (fun _ _ _ => rfl) (fun _ => rfl) t),
    (show ∀ d, _ = iblk2 V c 1 t from (dat2 V c).before_in_eq_fetched 1 rfl (fun _ => rfl) (fun _ _ _ => rfl) (fun _ => rfl) t),
    (show ∀ d, _ = iblk2 V c 2 t from (dat2 V c).before_in_eq_fetched 2 rfl (fun _ => rfl) (fun _ _ _ => rfl) (fun _ => rfl) t)]
  rw [show (dat2 V c).Φ t.succ = (dat2 V c).Φ t.castSucc from rfl, show (dat2 V c).owesAt () t.succ = (dat2 V c).owesAt () t.castSucc from rfl]
  change _ ⊢ wp _ _ _ (bodyAt2 t) _
  unfold bodyAt2
  rw [cc2__matmul_scale_kernel_eq_skeleton]
  unfold cc2__matmul_scale_kernel_skel owns
  iintro ⟨HΦ, Ho, ⟨%d0, %f1, %e1, B1⟩, ⟨%d1, %f2, %e2, B2⟩, ⟨%d2, %f3, %e3, B3⟩, ⟨%d3, %f4, -, B4⟩, ⟨%d4, %f5, -, B5⟩⟩
  rw [← e1, ← e2, ← e3]
  sl_exec
  sl_step
  iframe HΦ Ho
  isplitl [B1]; · iexists f1; iframe B1; ipureintro; rfl
  isplitl [B2]; · iexists f2; iframe B2; ipureintro; rfl
  isplitl [B3]; · iexists f3; iframe B3; ipureintro; rfl
  isplitl [B4]
  · iexists _; iframe B4; ipureintro
    exact View.read_writes_eq_canon _ _ _ (View.cover_of_tiled _ S5000x96.size (by rfl))
  · iexists _; iframe B5; ipureintro
    exact View.read_writes_eq_canon _ _ _ (View.cover_of_tiled _ S5000x96.size (by rfl))

end Cert.Kernel.Fr

end
-- ==== Proof.K.Reg3.lean ====
import proofs.«419602_j28836410425874_3_alg».proof.Proof.Gen.Kernel.Launch
import proofs.«419602_j28836410425874_3_alg».proof.Proof.Gen.Kernel.Skeleton
import proofs.«419602_j28836410425874_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_x : Rect S5000x96 := Rect.unit (s := S5000x96) ![0, 0] S5000x96.size inb_S5000x96_S5000x96_0_0

abbrev rect3_d : Rect S5000x1 := Rect.unit (s := S5000x1) ![0, 0] S5000x1.size inb_S5000x1_S5000x1_0_0

abbrev rect3_b : Rect S1x96 := Rect.unit (s := S1x96) ![0, 0] S1x96.size inb_S1x96_S1x96_0_0

def out3_4 (x0 x1 : Vec F S5000x96 .f32) (x2 : Vec F S5000x1 .f32) (x3 : Vec F S1x96 .f32) : Vec F S5000x96 .f32 :=
  View.canon [⟨rect3_x, k3_pay1 (View.ld x0 rect3_x) (View.ld x1 rect3_x) (View.ld x2 rect3_d) (View.ld x3 rect3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by
  dsimp only [dat3]

theorem body_obligation3 (c : Dev nD) : BodyObligation (dat3 (F := F) V c) (defs₀ (F := F)) Variants.none () Set.univ := by
  intro t
  simp only [bigSep_W3, after3_0, after3_1, after3_2, after3_3, after3_4,
    (show ∀ d, _ = iblk3 V c 0 t from (dat3 V c).before_in_eq_fetched 0 rfl (fun _ => rfl) (fun _ _ _ => rfl) (fun _ => rfl) t),
    (show ∀ d, _ = iblk3 V c 1 t from (dat3 V c).before_in_eq_fetched 1 rfl (fun _ => rfl) (fun _ _ _ => rfl) (fun _ => rfl) t),
    (show ∀ d, _ = iblk3 V c 2 t from (dat3 V c).before_in_eq_fetched 2 rfl (fun _ => rfl) (fun _ _ _ => rfl) (fun _ => rfl) t),
    (show ∀ d, _ = iblk3 V c 3 t from (dat3 V c).before_in_eq_fetched 3 rfl (fun _ => rfl) (fun _ _ _ => rfl) (fun _ => rfl) t)]
  rw [show (dat3 V c).Φ t.succ = (dat3 V c).Φ t.castSucc from rfl, show (dat3 V c).owesAt () t.succ = (dat3 V c).owesAt () t.castSucc from rfl]
  change _ ⊢ wp _ _ _ (bodyAt3 t) _
  unfold bodyAt3
  rw [cc3__combine_kernel_eq_skeleton]
  unfold cc3__combine_kernel_skel owns
  iintro ⟨HΦ, Ho, ⟨%d0, %f0, %e0, H0⟩, ⟨%d1, %f1, %e1, H1⟩, ⟨%d2, %f2, %e2, H2⟩, ⟨%d3, %f3, %e3, H3⟩, ⟨%d4, %f4, -, H4⟩⟩
  rw [← e0, ← e1, ← e2, ← e3]
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x96.size (by rfl))

end Cert.Kernel.Fr

end
-- ==== Proof.K.Reg4.lean ====
import proofs.«419602_j28836410425874_3_alg».proof.Proof.Gen.Kernel.Launch
import proofs.«419602_j28836410425874_3_alg».proof.Proof.Gen.Kernel.Skeleton
import proofs.«419602_j28836410425874_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by
  funext a; fin_cases a <;> rfl

theorem readAt_whole {κ : Kind} {sp : Space} {e : EltTy} {d : Fin 2 → ℕ} (v : View sig κ sp ⟨2, d⟩ e) (f : v.ty.Contents (Elt F))
    (inb : ∀ a, (![0, 0] : Fin 2 → ℕ) a + d a ≤ d a) :
    v.readAt (Elt F) (Rect.unit (s := ⟨2, d⟩) ![0, 0] d inb).toLoadRect f = v.read (Elt F) f := by
  revert inb; rw [hz2]
  intro inb; funext x
  show v.read (Elt F) f ((Rect.whole _).emb x) = v.read (Elt F) f x
  rw [Rect.emb_whole_apply]

theorem read_writes_whole {κ : Kind} {sp : Space} {e : EltTy} {d : Fin 2 → ℕ} (v : View sig κ sp ⟨2, d⟩ e) (f : v.ty.Contents (Elt F))
    (inb : ∀ a, (![0, 0] : Fin 2 → ℕ) a + d a ≤ d a) (w : (⟨2, d⟩ : Shape).Idx → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w := by
  revert inb; rw [hz2]
  intro inb; funext y
  have hy := View.read_writes_cons_emb v f (Rect.whole _) w L y
  rwa [Rect.emb_whole_apply] at hy

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem run4 {c : Dev nD} {E : Set ℕ} {i : grid4.Coords}
    {arg1 : Memref sig .tc .vmem S5000x96 .f32} {harg1 : arg1.IsWhole} {arg2 : Memref sig .tc .vmem S5000x1 .i32} {harg2 : arg2.IsWhole}
    {arg3 : Memref sig .tc .vmem S96x10 .f32} {harg3 : arg3.IsWhole} {arg4 : Memref sig .tc .vmem S1x10 .f32} {harg4 : arg4.IsWhole}
    {arg5 : Memref sig .tc .vmem S64x10 .f32} {harg5 : arg5.IsWhole} {arg6 : Memref sig .tc .vmem S64x96 .f32} {harg6 : arg6.IsWhole}
    {arg7 : Memref sig .tc .vmem S64x1 .f32} {harg7 : arg7.IsWhole}
    {x0 : Vec F S5000x96 .f32} {x1 : Vec F S5000x1 .i32} {x2 : Vec F S96x10 .f32} {x3 : Vec F S1x10 .f32}
    {d4 : Vec F S64x10 .f32} {s0 : Vec F S64x96 .f32} {s1 : Vec F S64x1 .f32} {K : PUnit → sProp 𝕄} (h : cond4_0 i → ¬cond4_1 i) :
    iprop(owns c.tc arg1 fullShare x0 ∗ owns c.tc arg2 fullShare x1
        ∗ owns c.tc arg3 fullShare x2 ∗ owns c.tc arg4 fullShare x3
        ∗ owns c.tc arg5 fullShare d4
        ∗ owns c.tc arg6 fullShare s0 ∗ owns c.tc arg7 fullShare s1
        ∗ (iprop(owns c.tc arg1 fullShare x0 ∗ owns c.tc arg2 fullShare x1
            ∗ owns c.tc arg3 fullShare x2 ∗ owns c.tc arg4 fullShare x3
            ∗ owns c.tc arg5 fullShare (if cond4_1 i then k4_pay6 (k4_pay4 x0 x1 s0) (k4_pay5 x1 s1) x2 x3 else d4)
            ∗ owns c.tc arg6 fullShare (k4_pay4 x0 x1 (if cond4_0 i then k4_pay1 else s0))
            ∗ owns c.tc arg7 fullShare (k4_pay5 x1 (if cond4_0 i then k4_pay2 else s1))) -∗ K ⟨⟩))
      ⊢ wp frame (wpE (defs₀ (F := F)) Variants.none c none) E (cc4__pool_kernel i arg1 harg1 arg2 harg2 arg3 harg3 arg4 harg4 arg5 harg5 arg6 harg6 arg7 harg7) K := by
  by_cases hc0 : cond4_0 i <;> by_cases hc1 : cond4_1 i
  · exact absurd hc1 (h hc0)
  on_goal 1 => simp only [if_pos hc0, if_neg hc1]
  on_goal 2 => simp only [if_neg hc0, if_pos hc1]
  on_goal 3 => simp only [if_neg hc0, if_neg hc1]
  all_goals
    simp only [cc4__pool_kernel_eq_skeleton]; unfold cc4__pool_kernel_skel owns
    iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, Hk⟩
    subst hf0 hf1 hf2 hf3 hf4 hg0 hg1
    sl_exec (disch := first | exact hc0 | exact hc1)
    sl_step
    iapply Hk
    isplitl [H0]; · iexists _; iframe H0; ipureintro; rfl
    isplitl [H1]; · iexists _; iframe H1; ipureintro; rfl
    isplitl [H2]; · iexists _; iframe H2; ipureintro; rfl
    isplitl [H3]; · iexists _; iframe H3; ipureintro; rfl
    isplitl [H4]; · iexists _; iframe; ipureintro; (try sl_unfold_words); simp only [read_writes_whole, readAt_whole, View.readCov_cons_toLoadRect]
    isplitl [HS0] <;> iexists _ <;> iframe <;> ipureintro <;> (try sl_unfold_words) <;> simp only [read_writes_whole, readAt_whole, View.readCov_cons_toLoadRect]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sc4 (c : Dev nD) : (n : ℕ) → n < cfg4.N → Vec F S64x96 .f32 × Vec F S64x1 .f32
  | 0, h => (k4_pay4 (iblk4 V c 0 ⟨0, h⟩) (iblk4 V c 1 ⟨0, h⟩) k4_pay1, k4_pay5 (iblk4 V c 1 ⟨0, h⟩) k4_pay2)
  | n + 1, h => (k4_pay4 (iblk4 V c 0 ⟨n + 1, h⟩) (iblk4 V c 1 ⟨n + 1, h⟩) (sc4 c n (Nat.lt_of_succ_lt h)).1, k4_pay5 (iblk4 V c 1 ⟨n + 1, h⟩) (sc4 c n (Nat.lt_of_succ_lt h)).2)

def out4_4 (c : Dev nD) (t : Fin cfg4.N) : Vec F S64x10 .f32 :=
  k4_pay6 (sc4 V c t.val t.isLt).1 (sc4 V c t.val t.isLt).2 (iblk4 V c 2 t) (iblk4 V c 3 t)

abbrev scM4_0 : Memref sig .tc .vmem S64x96 .f32 := Memref.whole cc4_scratch0
abbrev scM4_1 : Memref sig .tc .vmem S64x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

def Phi4 (c : Dev nD) : (n : ℕ) → n ≤ cfg4.N → sProp 𝕄
  | 0, _ => Pipeline.ΦA spec4 c
  | n + 1, hn => iprop(iprop(iprop(owns c.tc scM4_0 fullShare (sc4 V c n hn).1 ∗ owns c.tc scM4_1 fullShare (sc4 V c n hn).2)
      ∗ rest4 c) ∗ (∃ r, prngReg c r))

theorem PhiA4_eq (c : Dev nD) :
    (Pipeline.ΦA spec4 c : sProp 𝕄)
      = iprop(iprop(iprop((∃ d, owns c.tc scM4_0 fullShare d) ∗ (∃ d, owns c.tc scM4_1 fullShare d))
          ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = out4_4 V c t := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;>
    exact fun d => ((dat4 V c).before_in_eq_fetched _ rfl (fun _ => rfl) (fun _ _ _ => rfl) (fun _ => rfl) t d).trans rfl

theorem idleAt4_4 : ∀ t : Fin cfg4.N, ¬cond4_1 (grid4.coords t) → cfg4.idle 4 (grid4.coords t) = true :=
  (by decide +kernel : ∀ t : Fin grid4.N, ¬cond4_1 (grid4.coords t) → idle4 4 (grid4.coords t) = true)
theorem noFlush4_4 : ∀ t : Fin cfg4.N, ¬cond4_1 (grid4.coords t) → (cfg4.win 4).flush t = false :=
  (by decide +kernel : ∀ t : Fin grid4.N, ¬cond4_1 (grid4.coords t) → win4_4.flush t = false)
theorem liveAt4_4 : ∀ t : Fin cfg4.N, cond4_1 (grid4.coords t) → cfg4.idle 4 (grid4.coords t) = false :=
  (by decide +kernel : ∀ t : Fin grid4.N, cond4_1 (grid4.coords t) → idle4 4 (grid4.coords t) = false)

theorem sound_body4 (c : Dev nD) (t : Fin cfg4.N) :
    iprop(Phi4 V c t.val (Nat.le_of_lt t.isLt) ∗ (dat4 V c).owesAt () t.castSucc
      ∗ (∃ d, owns c.tc (st4_0 t) fullShare ((dat4 V c).before 0 t d))
      ∗ (∃ d, owns c.tc (st4_1 t) fullShare ((dat4 V c).before 1 t d))
      ∗ (∃ d, owns c.tc (st4_2 t) fullShare ((dat4 V c).before 2 t d))
      ∗ (∃ d, owns c.tc (st4_3 t) fullShare ((dat4 V c).before 3 t d))
      ∗ (∃ d, owns c.tc (st4_4 t) fullShare ((dat4 V c).before 4 t d)))
    ⊢ wp frame (wpE (defs₀ (F := F)) Variants.none c none) Set.univ (bodyAt4 t) (fun _ =>
      iprop(Phi4 V c (t.val + 1) t.isLt ∗ (dat4 V c).owesAt () t.castSucc
        ∗ owns c.tc (st4_0 t) fullShare (iblk4 V c 0 t) ∗ owns c.tc (st4_1 t) fullShare (iblk4 V c 1 t)
        ∗ owns c.tc (st4_2 t) fullShare (iblk4 V c 2 t) ∗ owns c.tc (st4_3 t) fullShare (iblk4 V c 3 t)
        ∗ (dat4 V c).leavesExact 4 t)) := by
  unfold bodyAt4
  obtain ⟨b0, b1, b2, b3⟩ := before4 V c t
  simp only [b0, b1, b2, b3]
  obtain ⟨_ | n, hn⟩ := t <;> simp only [Phi4, sc4]
  · have hc0 : cond4_0 (grid4.coords ⟨0, hn⟩) := (hcond4_0 _).mpr rfl
    have hc1 : ¬cond4_1 (grid4.coords ⟨0, hn⟩) := fun h => (by decide : (0 : ℕ) ≠ 9) ((hcond4_1 _).mp h)
    rw [Dat.leavesExact_idle (dat4 V c) 4 _ (idleAt4_4 _ hc1) (noFlush4_4 _ hc1), PhiA4_eq]
    iintro ⟨⟨⟨⟨⟨%_, HS0⟩, ⟨%_, HS1⟩⟩, HR⟩, Hg⟩, Ho, ⟨%_, H0⟩, ⟨%_, H1⟩, ⟨%_, H2⟩, ⟨%_, H3⟩, ⟨%_, H4⟩⟩
    iapply (run4 fun _ => hc1)
    simp only [if_pos hc0, if_neg hc1]
    iframe
    iintro ⟨$, $, $, $, H4, $, $⟩
    iexists _; iexact H4
  · have hc0 : ¬cond4_0 (grid4.coords ⟨n + 1, hn⟩) := fun h => absurd ((hcond4_0 _).mp h) (Nat.succ_ne_zero n)
    iintro ⟨⟨⟨⟨HS0, HS1⟩, HR⟩, Hg⟩, Ho, ⟨%_, H0⟩, ⟨%_, H1⟩, ⟨%_, H2⟩, ⟨%_, H3⟩, ⟨%_, H4⟩⟩
    by_cases hc1 : cond4_1 (grid4.coords ⟨n + 1, hn⟩)
    · rw [show (dat4 V c).leavesExact 4 ⟨n + 1, hn⟩ = owns c.tc (st4_4 ⟨n + 1, hn⟩) fullShare (out4_4 V c ⟨n + 1, hn⟩) from by
        unfold Dat.leavesExact; rw [liveAt4_4 _ hc1, after4_4]]
      simp only [out4_4, sc4]
      iapply (run4 fun h => absurd h hc0)
      simp only [if_neg hc0, if_pos hc1]
      iframe
      iintro ⟨$, $, $, $, $, $, $⟩
    · rw [Dat.leavesExact_idle (dat4 V c) 4 _ (idleAt4_4 _ hc1) (noFlush4_4 _ hc1)]
      iapply (run4 fun h => absurd h hc0)
      simp only [if_neg hc0, if_neg hc1]
      iframe
      iintro ⟨$, $, $, $, H4, $, $⟩
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  exact sep_mono_left (sep_mono_left (sep_mono (exists_intro _) (exists_intro _)))

end Cert.Kernel.Fr

end
-- ==== Proof.K.Tower.lean ====
import proofs.«419602_j28836410425874_3_alg».proof.Proof.K.Reg0
import proofs.«419602_j28836410425874_3_alg».proof.Proof.K.Reg1
import proofs.«419602_j28836410425874_3_alg».proof.Proof.K.Reg2
import proofs.«419602_j28836410425874_3_alg».proof.Proof.K.Reg3
import proofs.«419602_j28836410425874_3_alg».proof.Proof.K.Reg4
import proofs.«419602_j28836410425874_3_alg».proof.Proof.Gen.Kernel.Regions

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev X3 (c : Dev nD) : Valuation τ sig (Elt F) := Gen.V3 m c

def a4 (c : Dev nD) : Buf (Elt F) ((c : Thread nD τ).loc main_v28_0) := (dat0 (atTc (X3 m)) c).arrAt 3 cfg0.N
def b4 (c : Dev nD) : Buf (Elt F) ((c : Thread nD τ).loc main_v28_1) := (dat0 (atTc (X3 m)) c).arrAt 4 cfg0.N

abbrev X4 (c : Dev nD) : Valuation τ sig (Elt F) := Function.update (Function.update (X3 m c) main_v28_0 (a4 m c)) main_v28_1 (b4 m c)

abbrev X5 (c : Dev nD) : Valuation τ sig (Elt F) := StableHlo.after hostOps1 (X4 m c)
def a6 (c : Dev nD) : Buf (Elt F) ((c : Thread nD τ).loc main_v41) := (dat1 (atTc (X5 m)) c).arrAt 4 cfg1.N

abbrev X6 (c : Dev nD) : Valuation τ sig (Elt F) := Function.update (X5 m c) main_v41 (a6 m c)
def a7 (c : Dev nD) : Buf (Elt F) ((c : Thread nD τ).loc main_v42_0) := (dat2 (atTc (X6 m)) c).arrAt 3 cfg2.N
def b7 (c : Dev nD) : Buf (Elt F) ((c : Thread nD τ).loc main_v42_1) := (dat2 (atTc (X6 m)) c).arrAt 4 cfg2.N

abbrev X7 (c : Dev nD) : Valuation τ sig (Elt F) := Function.update (Function.update (X6 m c) main_v42_0 (a7 m c)) main_v42_1 (b7 m c)

abbrev X8 (c : Dev nD) : Valuation τ sig (Elt F) := StableHlo.after hostOps3 (X7 m c)
def a9 (c : Dev nD) : Buf (Elt F) ((c : Thread nD τ).loc main_v55) := (dat3 (atTc (X8 m)) c).arrAt 4 cfg3.N

abbrev X9 (c : Dev nD) : Valuation τ sig (Elt F) := Function.update (X8 m c) main_v55 (a9 m c)

abbrev X10 (c : Dev nD) : Valuation τ sig (Elt F) := StableHlo.after hostOps4 (X9 m c)

def a11 (c : Dev nD) : Buf (Elt F) ((c : Thread nD τ).loc main_v57) := (dat4 (atTc (X10 m)) c).arrAt 4 cfg4.N

def outs : Outs (F := F) := fun J r c =>
  match J with
  | 4 => Function.update (Function.update (fun r' : Ref sig .tc => (Gen.V0 m c r' : Buf (Elt F) ((c : Thread nD τ).loc r'))) main_v28_0 (a4 m c)) main_v28_1 (b4 m c) r
  | 6 => Function.update (fun r' : Ref sig .tc => (Gen.V0 m c r' : Buf (Elt F) ((c : Thread nD τ).loc r'))) main_v41 (a6 m c) r
  | 7 => Function.update (Function.update (fun r' : Ref sig .tc => (Gen.V0 m c r' : Buf (Elt F) ((c : Thread nD τ).loc r'))) main_v42_0 (a7 m c)) main_v42_1 (b7 m c) r
  | 9 => Function.update (fun r' : Ref sig .tc => (Gen.V0 m c r' : Buf (Elt F) ((c : Thread nD τ).loc r'))) main_v55 (a9 m c) r
  | 11 => Function.update (fun r' : Ref sig .tc => (Gen.V0 m c r' : Buf (Elt F) ((c : Thread nD τ).loc r'))) main_v57 (a11 m c) r
  | _ => Gen.V0 m c r

theorem outs_4a (c : Dev nD) : outs m 4 main_v28_0 c = a4 m c := by
  unfold outs
  exact (Function.update_of_ne (by decide) _ _).trans (Function.update_self _ _ _)
theorem outs_4b (c : Dev nD) : outs m 4 main_v28_1 c = b4 m c := by
  unfold outs
  exact Function.update_self _ _ _
theorem outs_6 (c : Dev nD) : outs m 6 main_v41 c = a6 m c := by
  unfold outs
  exact Function.update_self _ _ _
theorem outs_7a (c : Dev nD) : outs m 7 main_v42_0 c = a7 m c := by
  unfold outs
  exact (Function.update_of_ne (by decide) _ _).trans (Function.update_self _ _ _)
theorem outs_7b (c : Dev nD) : outs m 7 main_v42_1 c = b7 m c := by
  unfold outs
  exact Function.update_self _ _ _
theorem outs_9 (c : Dev nD) : outs m 9 main_v55 c = a9 m c := by
  unfold outs
  exact Function.update_self _ _ _

theorem outs_11 (c : Dev nD) : outs m 11 main_v57 c = a11 m c := by
  unfold outs
  exact Function.update_self _ _ _

theorem hV4 (c : Dev nD) : Gen.V4 m (outs m) c = X4 m c := by
  show Function.update (Function.update (Gen.V3 m c) main_v28_0 (outs m 4 main_v28_0 c)) main_v28_1 (outs m 4 main_v28_1 c) = _
  rw [outs_4a, outs_4b]
theorem hV5 (c : Dev nD) : Gen.V5 m (outs m) c = X5 m c := by
  show StableHlo.after hostOps1 (Gen.V4 m (outs m) c) = _
  rw [hV4]
theorem hV6 (c : Dev nD) : Gen.V6 m (outs m) c = X6 m c := by
  show Function.update (Gen.V5 m (outs m) c) main_v41 (outs m 6 main_v41 c) = _
  rw [outs_6, hV5]
theorem hV7 (c : Dev nD) : Gen.V7 m (outs m) c = X7 m c := by
  show Function.update (Function.update (Gen.V6 m (outs m) c) main_v42_0 (outs m 7 main_v42_0 c)) main_v42_1 (outs m 7 main_v42_1 c) = _
  rw [outs_7a, outs_7b, hV6]
theorem hV8 (c : Dev nD) : Gen.V8 m (outs m) c = X8 m c := by
  show StableHlo.after hostOps3 (Gen.V7 m (outs m) c) = _
  rw [hV7]
theorem hV9 (c : Dev nD) : Gen.V9 m (outs m) c = X9 m c := by
  show Function.update (Gen.V8 m (outs m) c) main_v55 (outs m 9 main_v55 c) = _
  rw [outs_9, hV8]
theorem hV10 (c : Dev nD) : Gen.V10 m (outs m) c = X10 m c := by
  show StableHlo.after hostOps4 (Gen.V9 m (outs m) c) = _
  rw [hV9]

end Cert.Kernel.Fr

end
-- ==== Proof.K.Regs.lean ====
import proofs.«419602_j28836410425874_3_alg».proof.Proof.K.Tower

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (cfgs p) c
  | ⟨0, _⟩ => fun c => dat0 (atTc (X3 m)) c
  | ⟨1, _⟩ => fun c => dat1 (atTc (X5 m)) c
  | ⟨2, _⟩ => fun c => dat2 (atTc (X6 m)) c
  | ⟨3, _⟩ => fun c => dat3 (atTc (X8 m)) c
  | ⟨4, _⟩ => fun c => dat4 (atTc (X10 m)) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem Rr_owes (c : Dev nD) : Rr (F := F) c ⊢ iprop(∃ W, owes (c : Thread nD τ) (0 : CellTallies nD τ sig Unit) W) := by
  iintro ⟨-, HO⟩
  iexact HO

section Region
variable {p : Fin 5} (lf : Pipeline.LaunchFacts (nD := nD) (τ := τ) cfgs p) (Xi Xo : Dev nD → Valuation τ sig (Elt F))
  (Wl : List (Ref sig .tc))

set_option backward.isDefEq.respectTransparency.types false in
/-- A region that owes nothing and changes only the arrays `Wl`: off `Wl` the exit contents are the entry contents. -/
def mkReg (hbody : ∀ c, BodyObligation (pdats m p c) (defs₀ (F := F)) Variants.none () Set.univ)
    (hq : ∀ c w, (pdats m p c).q w = fullShare)
    (hA : ∀ c w, (pdats m p c).A w = atTc Xi c (Pipeline.arrRef (cfgs p).spec w))
    (ho : ∀ c t, (pdats m p c).owed t = 0) (hr : ∀ c x, x ∈ (pdats m p c).recorded 0)
    (hof : ∀ c r, r ∉ Wl → Xo c r = Xi c r)
    (hsub : ∀ r ∈ Wl, r ∈ Finset.univ.image (Pipeline.arrRef (cfgs p).spec))
    (hkeep : ∀ w, ((cfgs p).win w).isOut = false → Pipeline.arrRef (cfgs p).spec w ∉ Wl)
    (hwr : ∀ c w, ((cfgs p).win w).isOut = true → (pdats m p c).arrAt w (cfgs p).N = atTc Xo c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (Xi c) ∗ Rr c)
  post c := iprop(StableHlo.held (c : Thread nD τ) (Pipeline.ucRefs τ sig) (Xo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atTc Xi c)
  hentry c := by
    have hsplit := Pipeline.arrays_of_unscopedBufs (p := p) (pcfgs (F := F)) Gen.adm (pdats m) lf.win lf.arr_whole c
      ((pdats m p c).share_full (hq c)) (atTc Xi c) (hA c)
    rw [Pipeline.unscopedBufs_held] at hsplit
    unfold Pipeline.prefHeld Pipeline.Dat.owesAt Pipeline.owesWithin
    rw [show (Finset.univ : Finset (Fin 0)) = ∅ from rfl, BI.bigSep_empty, ho c 0]
    iintro ⟨⟨Hb, Hg, %W, Hd⟩, -, -⟩
    ihave Hs := hsplit $$ Hb
    icases Hs with ⟨Ha, Hz⟩
    imodintro
    isplitl [Ha]
    · iexact Ha
    isplitr
    · iempintro
    isplitl [Hd]
    · iexists W
      isplitr
      · ipureintro
        exact fun x _ => Or.inl (hr c x)
      iexact Hd
    isplitl [Hg]
    · iexact Hg
    iexact Hz
  hin c := by
    refine .trans ?_ (hin c)
    unfold Pipeline.ΦA
    iintro ⟨Hg, -, Hs⟩
    iframe
  hout c := by
    rw [Pipeline.ownSems0_none]
    refine (hout c).trans ?_
    unfold Pipeline.ΦA
    iintro ⟨Hs, Hg⟩
    iframe
    iempintro
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atTc Xi c) (atTc Xo c) ((pdats m p c).arrAt · (cfgs p).N)
      (fun w => by
        cases hw : ((cfgs p).win w).isOut
        · exact (((pdats m p c).arrAt_in w hw _).trans (hA c w)).trans (hof c _ (hkeep w hw)).symm
        · exact hwr c w hw)
      (fun b hb => hof c b fun h => hb (hsub b h))
    rw [Pipeline.unscopedBufs_held] at hjoin
    unfold Pipeline.Dat.owesAt Pipeline.owesWithin
    rw [ho c]
    iintro ⟨Ha, ⟨%W, -, Hd⟩, Hg, Hz⟩
    imodintro
    isplitl [Ha Hz]
    · iapply hjoin
      iframe
    isplitl [Hg]
    · iexact Hg
    iexists W
    iexact Hd

end Region

def reg0 : Pipeline.RegionSeg (pcfgs (F := F)) Gen.adm (pdats m) () defs₀ 𝒱₀ L lv 0 :=
  mkReg m launch0 (Gen.V3 m) (Gen.V4 m (outs m)) [main_v28_0, main_v28_1] (fun c => body_obligation0 _ c) (fun _ _ => rfl)
    (A_eq0 _) (fun _ _ => rfl) (fun _ _ => trivial) (Gen.V4_of m (outs m)) (by decide) (by decide)
    (fun c w => match w with
      | ⟨0, _⟩ | ⟨1, _⟩ | ⟨2, _⟩ => fun h => (Bool.false_ne_true h).elim
      | ⟨3, _⟩ => fun _ => by
        have e : (Proc.devRef .tc main_v28_0 : DevRef τ sig) ≠ Proc.devRef .tc main_v28_1 := StableHlo.devRef_ne_of_ne (by decide)
        show a4 m c = Gen.V4 m (outs m) c main_v28_0
        simp only [Function.update_of_ne e, Function.update_self, outs_4a]
      | ⟨4, _⟩ => fun _ => by
        show b4 m c = Gen.V4 m (outs m) c main_v28_1
        simp only [Function.update_self, outs_4b])
    (fun _ => .rfl) (fun _ => .rfl)

def reg1 : Pipeline.RegionSeg (pcfgs (F := F)) Gen.adm (pdats m) () defs₀ 𝒱₀ L lv 1 :=
  mkReg m launch1 (Gen.V5 m (outs m)) (Gen.V6 m (outs m)) [main_v41] (fun c => body_obligation1 _ c) (fun _ _ => rfl)
    (fun c w => (A_eq1 _ c w).trans (congrFun (hV5 m c) _).symm) (fun _ _ => rfl) (fun _ _ => trivial) (Gen.V6_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a6 m c = Gen.V6 m (outs m) c main_v41
        simp only [Function.update_self, outs_6])
    (fun _ => .rfl) (fun _ => .rfl)

def reg2 : Pipeline.RegionSeg (pcfgs (F := F)) Gen.adm (pdats m) () defs₀ 𝒱₀ L lv 2 :=
  mkReg m launch2 (Gen.V6 m (outs m)) (Gen.V7 m (outs m)) [main_v42_0, main_v42_1] (fun c => body_obligation2 _ c) (fun _ _ => rfl)
    (fun c w => (A_eq2 _ c w).trans (congrFun (hV6 m c) _).symm) (fun _ _ => rfl) (fun _ _ => trivial) (Gen.V7_of m (outs m)) (by decide) (by decide)
    (fun c w => match w with
      | ⟨0, _⟩ | ⟨1, _⟩ | ⟨2, _⟩ => fun h => (Bool.false_ne_true h).elim
      | ⟨3, _⟩ => fun _ => by
        have e : (Proc.devRef .tc main_v42_0 : DevRef τ sig) ≠ Proc.devRef .tc main_v42_1 := StableHlo.devRef_ne_of_ne (by decide)
        show a7 m c = Gen.V7 m (outs m) c main_v42_0
        simp only [Function.update_of_ne e, Function.update_self, outs_7a]
      | ⟨4, _⟩ => fun _ => by
        show b7 m c = Gen.V7 m (outs m) c main_v42_1
        simp only [Function.update_self, outs_7b])
    (fun _ => .rfl) (fun _ => .rfl)

def reg3 : Pipeline.RegionSeg (pcfgs (F := F)) Gen.adm (pdats m) () defs₀ 𝒱₀ L lv 3 :=
  mkReg m launch3 (Gen.V8 m (outs m)) (Gen.V9 m (outs m)) [main_v55] (fun c => body_obligation3 _ c) (fun _ _ => rfl)
    (fun c w => (A_eq3 _ c w).trans (congrFun (hV8 m c) _).symm) (fun _ _ => rfl) (fun _ _ => trivial) (Gen.V9_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a9 m c = Gen.V9 m (outs m) c main_v55
        simp only [Function.update_self, outs_9])
    (fun _ => .rfl) (fun _ => .rfl)

def reg4 : Pipeline.RegionSeg (pcfgs (F := F)) Gen.adm (pdats m) () defs₀ 𝒱₀ L lv 4 :=
  mkReg m launch4 (Gen.V10 m (outs m)) (Gen.V11 m (outs m)) [main_v57] (fun c => body_obligation4 _ c) (fun _ _ => rfl)
    (fun c w => (A_eq4 _ c w).trans (congrFun (hV10 m c) _).symm) (fun _ _ => rfl) (fun _ _ => trivial) (Gen.V11_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a11 m c = Gen.V11 m (outs m) c main_v57
        simp only [Function.update_self, outs_11])
    (hin4 _) (hout4 _)

end Cert.Kernel.Fr

end
-- ==== Proof.KI.Reg0.lean ====
import proofs.«419602_j28836410425874_3_alg».proof.Proof.Gen.KernelIdeal.Launch
import proofs.«419602_j28836410425874_3_alg».proof.Proof.Gen.KernelIdeal.Skeleton
import proofs.«419602_j28836410425874_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_x : Rect S5000x96 := Rect.unit (s := S5000x96) ![0, 0] S5000x96.size inb_S5000x96_S5000x96_0_0
abbrev rect0_w : Rect S96x96 := Rect.unit (s := S96x96) ![0, 0] S96x96.size inb_S96x96_S96x96_0_0
abbrev rect0_d : Rect S5000x1 := Rect.unit (s := S5000x1) ![0, 0] S5000x1.size inb_S5000x1_S5000x1_0_0

def out0_3 (x0 : Vec F S5000x96 .f32) (x1 : Vec F S96x96 .f32) : Vec F S5000x96 .f32 :=
  View.canon [⟨rect0_x, k0_pay1 (View.ld x0 rect0_x) (View.ld x1 rect0_w)⟩]

def out0_4 (x0 : Vec F S5000x96 .f32) (x1 : Vec F S96x96 .f32) (x2 : Vec F S5000x1 .f32) : Vec F S5000x96 .bf16 :=
  View.canon [⟨rect0_x, k0_pay2 (View.ld x0 rect0_x) (View.ld x1 rect0_w) (View.ld x2 rect0_d)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem body_obligation0 (c : Dev nD) : BodyObligation (dat0 (F := F) V c) (defs₀ (F := F)) Variants.none () Set.univ := by
  intro t
  simp only [bigSep_W0, after0_0, after0_1, after0_2, after0_3, after0_4,
    (show ∀ d, _ = iblk0 V c 0 t from (dat0 V c).before_in_eq_fetched 0 rfl (fun _ => rfl) (fun _ _ _ => rfl) (fun _ => rfl) t),
    (show ∀ d, _ = iblk0 V c 1 t from (dat0 V c).before_in_eq_fetched 1 rfl (fun _ => rfl) (fun _ _ _ => rfl) (fun _ => rfl) t),
    (show ∀ d, _ = iblk0 V c 2 t from (dat0 V c).before_in_eq_fetched 2 rfl (fun _ => rfl) (fun _ _ _ => rfl) (fun _ => rfl) t)]
  rw [show (dat0 V c).Φ t.succ = (dat0 V c).Φ t.castSucc from rfl, show (dat0 V c).owesAt () t.succ = (dat0 V c).owesAt () t.castSucc from rfl]
  change _ ⊢ wp _ _ _ (bodyAt0 t) _
  unfold bodyAt0
  rw [cc0__matmul_scale_kernel_eq_skeleton]
  unfold cc0__matmul_scale_kernel_skel owns
  iintro ⟨HΦ, Ho, ⟨%d0, %f1, %e1, B1⟩, ⟨%d1, %f2, %e2, B2⟩, ⟨%d2, %f3, %e3, B3⟩, ⟨%d3, %f4, -, B4⟩, ⟨%d4, %f5, -, B5⟩⟩
  rw [← e1, ← e2, ← e3]
  sl_exec
  sl_step
  iframe HΦ Ho
  isplitl [B1]; · iexists f1; iframe B1; ipureintro; rfl
  isplitl [B2]; · iexists f2; iframe B2; ipureintro; rfl
  isplitl [B3]; · iexists f3; iframe B3; ipureintro; rfl
  isplitl [B4]
  · iexists _; iframe B4; ipureintro
    exact View.read_writes_eq_canon _ _ _ (View.cover_of_tiled _ S5000x96.size (by rfl))
  · iexists _; iframe B5; ipureintro
    exact View.read_writes_eq_canon _ _ _ (View.cover_of_tiled _ S5000x96.size (by rfl))

end Cert.KernelIdeal.Fr

end
-- ==== Proof.KI.Reg1.lean ====
import proofs.«419602_j28836410425874_3_alg».proof.Proof.Gen.KernelIdeal.Launch
import proofs.«419602_j28836410425874_3_alg».proof.Proof.Gen.KernelIdeal.Skeleton
import proofs.«419602_j28836410425874_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_x : Rect S5000x96 := Rect.unit (s := S5000x96) ![0, 0] S5000x96.size inb_S5000x96_S5000x96_0_0

abbrev rect1_d : Rect S5000x1 := Rect.unit (s := S5000x1) ![0, 0] S5000x1.size inb_S5000x1_S5000x1_0_0

abbrev rect1_b : Rect S1x96 := Rect.unit (s := S1x96) ![0, 0] S1x96.size inb_S1x96_S1x96_0_0

def out1_4 (x0 x1 : Vec F S5000x96 .f32) (x2 : Vec F S5000x1 .f32) (x3 : Vec F S1x96 .f32) : Vec F S5000x96 .f32 :=
  View.canon [⟨rect1_x, k1_pay1 (View.ld x0 rect1_x) (View.ld x1 rect1_x) (View.ld x2 rect1_d) (View.ld x3 rect1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

theorem body_obligation1 (c : Dev nD) : BodyObligation (dat1 (F := F) V c) (defs₀ (F := F)) Variants.none () Set.univ := by
  intro t
  simp only [bigSep_W1, after1_0, after1_1, after1_2, after1_3, after1_4,
    (show ∀ d, _ = iblk1 V c 0 t from (dat1 V c).before_in_eq_fetched 0 rfl (fun _ => rfl) (fun _ _ _ => rfl) (fun _ => rfl) t),
    (show ∀ d, _ = iblk1 V c 1 t from (dat1 V c).before_in_eq_fetched 1 rfl (fun _ => rfl) (fun _ _ _ => rfl) (fun _ => rfl) t),
    (show ∀ d, _ = iblk1 V c 2 t from (dat1 V c).before_in_eq_fetched 2 rfl (fun _ => rfl) (fun _ _ _ => rfl) (fun _ => rfl) t),
    (show ∀ d, _ = iblk1 V c 3 t from (dat1 V c).before_in_eq_fetched 3 rfl (fun _ => rfl) (fun _ _ _ => rfl) (fun _ => rfl) t)]
  rw [show (dat1 V c).Φ t.succ = (dat1 V c).Φ t.castSucc from rfl, show (dat1 V c).owesAt () t.succ = (dat1 V c).owesAt () t.castSucc from rfl]
  change _ ⊢ wp _ _ _ (bodyAt1 t) _
  unfold bodyAt1
  rw [cc1__combine_kernel_eq_skeleton]
  unfold cc1__combine_kernel_skel owns
  iintro ⟨HΦ, Ho, ⟨%d0, %f0, %e0, H0⟩, ⟨%d1, %f1, %e1, H1⟩, ⟨%d2, %f2, %e2, H2⟩, ⟨%d3, %f3, %e3, H3⟩, ⟨%d4, %f4, -, H4⟩⟩
  rw [← e0, ← e1, ← e2, ← e3]
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x96.size (by rfl))

end Cert.KernelIdeal.Fr

end
-- ==== Proof.KI.Reg2.lean ====
import proofs.«419602_j28836410425874_3_alg».proof.Proof.Gen.KernelIdeal.Launch
import proofs.«419602_j28836410425874_3_alg».proof.Proof.Gen.KernelIdeal.Skeleton
import proofs.«419602_j28836410425874_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_x : Rect S5000x96 := Rect.unit (s := S5000x96) ![0, 0] S5000x96.size inb_S5000x96_S5000x96_0_0
abbrev rect2_w : Rect S96x96 := Rect.unit (s := S96x96) ![0, 0] S96x96.size inb_S96x96_S96x96_0_0
abbrev rect2_d : Rect S5000x1 := Rect.unit (s := S5000x1) ![0, 0] S5000x1.size inb_S5000x1_S5000x1_0_0

def out2_3 (x0 : Vec F S5000x96 .f32) (x1 : Vec F S96x96 .f32) : Vec F S5000x96 .f32 :=
  View.canon [⟨rect2_x, k2_pay1 (View.ld x0 rect2_x) (View.ld x1 rect2_w)⟩]

def out2_4 (x0 : Vec F S5000x96 .f32) (x1 : Vec F S96x96 .f32) (x2 : Vec F S5000x1 .f32) : Vec F S5000x96 .bf16 :=
  View.canon [⟨rect2_x, k2_pay2 (View.ld x0 rect2_x) (View.ld x1 rect2_w) (View.ld x2 rect2_d)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem body_obligation2 (c : Dev nD) : BodyObligation (dat2 (F := F) V c) (defs₀ (F := F)) Variants.none () Set.univ := by
  intro t
  simp only [bigSep_W2, after2_0, after2_1, after2_2, after2_3, after2_4,
    (show ∀ d, _ = iblk2 V c 0 t from (dat2 V c).before_in_eq_fetched 0 rfl (fun _ => rfl) (fun _ _ _ => rfl) (fun _ => rfl) t),
    (show ∀ d, _ = iblk2 V c 1 t from (dat2 V c).before_in_eq_fetched 1 rfl (fun _ => rfl) (fun _ _ _ => rfl) (fun _ => rfl) t),
    (show ∀ d, _ = iblk2 V c 2 t from (dat2 V c).before_in_eq_fetched 2 rfl (fun _ => rfl) (fun _ _ _ => rfl) (fun _ => rfl) t)]
  rw [show (dat2 V c).Φ t.succ = (dat2 V c).Φ t.castSucc from rfl, show (dat2 V c).owesAt () t.succ = (dat2 V c).owesAt () t.castSucc from rfl]
  change _ ⊢ wp _ _ _ (bodyAt2 t) _
  unfold bodyAt2
  rw [cc2__matmul_scale_kernel_eq_skeleton]
  unfold cc2__matmul_scale_kernel_skel owns
  iintro ⟨HΦ, Ho, ⟨%d0, %f1, %e1, B1⟩, ⟨%d1, %f2, %e2, B2⟩, ⟨%d2, %f3, %e3, B3⟩, ⟨%d3, %f4, -, B4⟩, ⟨%d4, %f5, -, B5⟩⟩
  rw [← e1, ← e2, ← e3]
  sl_exec
  sl_step
  iframe HΦ Ho
  isplitl [B1]; · iexists f1; iframe B1; ipureintro; rfl
  isplitl [B2]; · iexists f2; iframe B2; ipureintro; rfl
  isplitl [B3]; · iexists f3; iframe B3; ipureintro; rfl
  isplitl [B4]
  · iexists _; iframe B4; ipureintro
    exact View.read_writes_eq_canon _ _ _ (View.cover_of_tiled _ S5000x96.size (by rfl))
  · iexists _; iframe B5; ipureintro
    exact View.read_writes_eq_canon _ _ _ (View.cover_of_tiled _ S5000x96.size (by rfl))

end Cert.KernelIdeal.Fr

end
-- ==== Proof.KI.Reg3.lean ====
import proofs.«419602_j28836410425874_3_alg».proof.Proof.Gen.KernelIdeal.Launch
import proofs.«419602_j28836410425874_3_alg».proof.Proof.Gen.KernelIdeal.Skeleton
import proofs.«419602_j28836410425874_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_x : Rect S5000x96 := Rect.unit (s := S5000x96) ![0, 0] S5000x96.size inb_S5000x96_S5000x96_0_0

abbrev rect3_d : Rect S5000x1 := Rect.unit (s := S5000x1) ![0, 0] S5000x1.size inb_S5000x1_S5000x1_0_0

abbrev rect3_b : Rect S1x96 := Rect.unit (s := S1x96) ![0, 0] S1x96.size inb_S1x96_S1x96_0_0

def out3_4 (x0 x1 : Vec F S5000x96 .f32) (x2 : Vec F S5000x1 .f32) (x3 : Vec F S1x96 .f32) : Vec F S5000x96 .f32 :=
  View.canon [⟨rect3_x, k3_pay1 (View.ld x0 rect3_x) (View.ld x1 rect3_x) (View.ld x2 rect3_d) (View.ld x3 rect3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by
  dsimp only [dat3]

theorem body_obligation3 (c : Dev nD) : BodyObligation (dat3 (F := F) V c) (defs₀ (F := F)) Variants.none () Set.univ := by
  intro t
  simp only [bigSep_W3, after3_0, after3_1, after3_2, after3_3, after3_4,
    (show ∀ d, _ = iblk3 V c 0 t from (dat3 V c).before_in_eq_fetched 0 rfl (fun _ => rfl) (fun _ _ _ => rfl) (fun _ => rfl) t),
    (show ∀ d, _ = iblk3 V c 1 t from (dat3 V c).before_in_eq_fetched 1 rfl (fun _ => rfl) (fun _ _ _ => rfl) (fun _ => rfl) t),
    (show ∀ d, _ = iblk3 V c 2 t from (dat3 V c).before_in_eq_fetched 2 rfl (fun _ => rfl) (fun _ _ _ => rfl) (fun _ => rfl) t),
    (show ∀ d, _ = iblk3 V c 3 t from (dat3 V c).before_in_eq_fetched 3 rfl (fun _ => rfl) (fun _ _ _ => rfl) (fun _ => rfl) t)]
  rw [show (dat3 V c).Φ t.succ = (dat3 V c).Φ t.castSucc from rfl, show (dat3 V c).owesAt () t.succ = (dat3 V c).owesAt () t.castSucc from rfl]
  change _ ⊢ wp _ _ _ (bodyAt3 t) _
  unfold bodyAt3
  rw [cc3__combine_kernel_eq_skeleton]
  unfold cc3__combine_kernel_skel owns
  iintro ⟨HΦ, Ho, ⟨%d0, %f0, %e0, H0⟩, ⟨%d1, %f1, %e1, H1⟩, ⟨%d2, %f2, %e2, H2⟩, ⟨%d3, %f3, %e3, H3⟩, ⟨%d4, %f4, -, H4⟩⟩
  rw [← e0, ← e1, ← e2, ← e3]
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x96.size (by rfl))

end Cert.KernelIdeal.Fr

end
-- ==== Proof.KI.Reg4.lean ====
import proofs.«419602_j28836410425874_3_alg».proof.Proof.Gen.KernelIdeal.Launch
import proofs.«419602_j28836410425874_3_alg».proof.Proof.Gen.KernelIdeal.Skeleton
import proofs.«419602_j28836410425874_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by
  funext a; fin_cases a <;> rfl

theorem readAt_whole {κ : Kind} {sp : Space} {e : EltTy} {d : Fin 2 → ℕ} (v : View sig κ sp ⟨2, d⟩ e) (f : v.ty.Contents (Elt F))
    (inb : ∀ a, (![0, 0] : Fin 2 → ℕ) a + d a ≤ d a) :
    v.readAt (Elt F) (Rect.unit (s := ⟨2, d⟩) ![0, 0] d inb).toLoadRect f = v.read (Elt F) f := by
  revert inb; rw [hz2]
  intro inb; funext x
  show v.read (Elt F) f ((Rect.whole _).emb x) = v.read (Elt F) f x
  rw [Rect.emb_whole_apply]

theorem read_writes_whole {κ : Kind} {sp : Space} {e : EltTy} {d : Fin 2 → ℕ} (v : View sig κ sp ⟨2, d⟩ e) (f : v.ty.Contents (Elt F))
    (inb : ∀ a, (![0, 0] : Fin 2 → ℕ) a + d a ≤ d a) (w : (⟨2, d⟩ : Shape).Idx → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w := by
  revert inb; rw [hz2]
  intro inb; funext y
  have hy := View.read_writes_cons_emb v f (Rect.whole _) w L y
  rwa [Rect.emb_whole_apply] at hy

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem run4 {c : Dev nD} {E : Set ℕ} {i : grid4.Coords}
    {arg1 : Memref sig .tc .vmem S5000x96 .f32} {harg1 : arg1.IsWhole} {arg2 : Memref sig .tc .vmem S5000x1 .i32} {harg2 : arg2.IsWhole}
    {arg3 : Memref sig .tc .vmem S96x10 .f32} {harg3 : arg3.IsWhole} {arg4 : Memref sig .tc .vmem S1x10 .f32} {harg4 : arg4.IsWhole}
    {arg5 : Memref sig .tc .vmem S64x10 .f32} {harg5 : arg5.IsWhole} {arg6 : Memref sig .tc .vmem S64x96 .f32} {harg6 : arg6.IsWhole}
    {arg7 : Memref sig .tc .vmem S64x1 .f32} {harg7 : arg7.IsWhole}
    {x0 : Vec F S5000x96 .f32} {x1 : Vec F S5000x1 .i32} {x2 : Vec F S96x10 .f32} {x3 : Vec F S1x10 .f32}
    {d4 : Vec F S64x10 .f32} {s0 : Vec F S64x96 .f32} {s1 : Vec F S64x1 .f32} {K : PUnit → sProp 𝕄} (h : cond4_0 i → ¬cond4_1 i) :
    iprop(owns c.tc arg1 fullShare x0 ∗ owns c.tc arg2 fullShare x1
        ∗ owns c.tc arg3 fullShare x2 ∗ owns c.tc arg4 fullShare x3
        ∗ owns c.tc arg5 fullShare d4
        ∗ owns c.tc arg6 fullShare s0 ∗ owns c.tc arg7 fullShare s1
        ∗ (iprop(owns c.tc arg1 fullShare x0 ∗ owns c.tc arg2 fullShare x1
            ∗ owns c.tc arg3 fullShare x2 ∗ owns c.tc arg4 fullShare x3
            ∗ owns c.tc arg5 fullShare (if cond4_1 i then k4_pay6 (k4_pay4 x0 x1 s0) (k4_pay5 x1 s1) x2 x3 else d4)
            ∗ owns c.tc arg6 fullShare (k4_pay4 x0 x1 (if cond4_0 i then k4_pay1 else s0))
            ∗ owns c.tc arg7 fullShare (k4_pay5 x1 (if cond4_0 i then k4_pay2 else s1))) -∗ K ⟨⟩))
      ⊢ wp frame (wpE (defs₀ (F := F)) Variants.none c none) E (cc4__pool_kernel i arg1 harg1 arg2 harg2 arg3 harg3 arg4 harg4 arg5 harg5 arg6 harg6 arg7 harg7) K := by
  by_cases hc0 : cond4_0 i <;> by_cases hc1 : cond4_1 i
  · exact absurd hc1 (h hc0)
  on_goal 1 => simp only [if_pos hc0, if_neg hc1]
  on_goal 2 => simp only [if_neg hc0, if_pos hc1]
  on_goal 3 => simp only [if_neg hc0, if_neg hc1]
  all_goals
    simp only [cc4__pool_kernel_eq_skeleton]; unfold cc4__pool_kernel_skel owns
    iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, Hk⟩
    subst hf0 hf1 hf2 hf3 hf4 hg0 hg1
    sl_exec (disch := first | exact hc0 | exact hc1)
    sl_step
    iapply Hk
    isplitl [H0]; · iexists _; iframe H0; ipureintro; rfl
    isplitl [H1]; · iexists _; iframe H1; ipureintro; rfl
    isplitl [H2]; · iexists _; iframe H2; ipureintro; rfl
    isplitl [H3]; · iexists _; iframe H3; ipureintro; rfl
    isplitl [H4]; · iexists _; iframe; ipureintro; (try sl_unfold_words); simp only [read_writes_whole, readAt_whole, View.readCov_cons_toLoadRect]
    isplitl [HS0] <;> iexists _ <;> iframe <;> ipureintro <;> (try sl_unfold_words) <;> simp only [read_writes_whole, readAt_whole, View.readCov_cons_toLoadRect]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sc4 (c : Dev nD) : (n : ℕ) → n < cfg4.N → Vec F S64x96 .f32 × Vec F S64x1 .f32
  | 0, h => (k4_pay4 (iblk4 V c 0 ⟨0, h⟩) (iblk4 V c 1 ⟨0, h⟩) k4_pay1, k4_pay5 (iblk4 V c 1 ⟨0, h⟩) k4_pay2)
  | n + 1, h => (k4_pay4 (iblk4 V c 0 ⟨n + 1, h⟩) (iblk4 V c 1 ⟨n + 1, h⟩) (sc4 c n (Nat.lt_of_succ_lt h)).1, k4_pay5 (iblk4 V c 1 ⟨n + 1, h⟩) (sc4 c n (Nat.lt_of_succ_lt h)).2)

def out4_4 (c : Dev nD) (t : Fin cfg4.N) : Vec F S64x10 .f32 :=
  k4_pay6 (sc4 V c t.val t.isLt).1 (sc4 V c t.val t.isLt).2 (iblk4 V c 2 t) (iblk4 V c 3 t)

abbrev scM4_0 : Memref sig .tc .vmem S64x96 .f32 := Memref.whole cc4_scratch0
abbrev scM4_1 : Memref sig .tc .vmem S64x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

def Phi4 (c : Dev nD) : (n : ℕ) → n ≤ cfg4.N → sProp 𝕄
  | 0, _ => Pipeline.ΦA spec4 c
  | n + 1, hn => iprop(iprop(iprop(owns c.tc scM4_0 fullShare (sc4 V c n hn).1 ∗ owns c.tc scM4_1 fullShare (sc4 V c n hn).2)
      ∗ rest4 c) ∗ (∃ r, prngReg c r))

theorem PhiA4_eq (c : Dev nD) :
    (Pipeline.ΦA spec4 c : sProp 𝕄)
      = iprop(iprop(iprop((∃ d, owns c.tc scM4_0 fullShare d) ∗ (∃ d, owns c.tc scM4_1 fullShare d))
          ∗ rest4 c) ∗ (∃ r, prngReg c r)) := by
  unfold Pipeline.ΦA; rw [scopedRest4_split]; simp only [scM4_0, scM4_1, owns_whole]; try rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := Phi4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = iblk4 V c 3 t := rfl
theorem after4_4 (c : Dev nD) (t : Fin cfg4.N) : (dat4 V c).after 4 t = out4_4 V c t := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;>
    exact fun d => ((dat4 V c).before_in_eq_fetched _ rfl (fun _ => rfl) (fun _ _ _ => rfl) (fun _ => rfl) t d).trans rfl

theorem idleAt4_4 : ∀ t : Fin cfg4.N, ¬cond4_1 (grid4.coords t) → cfg4.idle 4 (grid4.coords t) = true :=
  (by decide +kernel : ∀ t : Fin grid4.N, ¬cond4_1 (grid4.coords t) → idle4 4 (grid4.coords t) = true)
theorem noFlush4_4 : ∀ t : Fin cfg4.N, ¬cond4_1 (grid4.coords t) → (cfg4.win 4).flush t = false :=
  (by decide +kernel : ∀ t : Fin grid4.N, ¬cond4_1 (grid4.coords t) → win4_4.flush t = false)
theorem liveAt4_4 : ∀ t : Fin cfg4.N, cond4_1 (grid4.coords t) → cfg4.idle 4 (grid4.coords t) = false :=
  (by decide +kernel : ∀ t : Fin grid4.N, cond4_1 (grid4.coords t) → idle4 4 (grid4.coords t) = false)

theorem sound_body4 (c : Dev nD) (t : Fin cfg4.N) :
    iprop(Phi4 V c t.val (Nat.le_of_lt t.isLt) ∗ (dat4 V c).owesAt () t.castSucc
      ∗ (∃ d, owns c.tc (st4_0 t) fullShare ((dat4 V c).before 0 t d))
      ∗ (∃ d, owns c.tc (st4_1 t) fullShare ((dat4 V c).before 1 t d))
      ∗ (∃ d, owns c.tc (st4_2 t) fullShare ((dat4 V c).before 2 t d))
      ∗ (∃ d, owns c.tc (st4_3 t) fullShare ((dat4 V c).before 3 t d))
      ∗ (∃ d, owns c.tc (st4_4 t) fullShare ((dat4 V c).before 4 t d)))
    ⊢ wp frame (wpE (defs₀ (F := F)) Variants.none c none) Set.univ (bodyAt4 t) (fun _ =>
      iprop(Phi4 V c (t.val + 1) t.isLt ∗ (dat4 V c).owesAt () t.castSucc
        ∗ owns c.tc (st4_0 t) fullShare (iblk4 V c 0 t) ∗ owns c.tc (st4_1 t) fullShare (iblk4 V c 1 t)
        ∗ owns c.tc (st4_2 t) fullShare (iblk4 V c 2 t) ∗ owns c.tc (st4_3 t) fullShare (iblk4 V c 3 t)
        ∗ (dat4 V c).leavesExact 4 t)) := by
  unfold bodyAt4
  obtain ⟨b0, b1, b2, b3⟩ := before4 V c t
  simp only [b0, b1, b2, b3]
  obtain ⟨_ | n, hn⟩ := t <;> simp only [Phi4, sc4]
  · have hc0 : cond4_0 (grid4.coords ⟨0, hn⟩) := (hcond4_0 _).mpr rfl
    have hc1 : ¬cond4_1 (grid4.coords ⟨0, hn⟩) := fun h => (by decide : (0 : ℕ) ≠ 9) ((hcond4_1 _).mp h)
    rw [Dat.leavesExact_idle (dat4 V c) 4 _ (idleAt4_4 _ hc1) (noFlush4_4 _ hc1), PhiA4_eq]
    iintro ⟨⟨⟨⟨⟨%_, HS0⟩, ⟨%_, HS1⟩⟩, HR⟩, Hg⟩, Ho, ⟨%_, H0⟩, ⟨%_, H1⟩, ⟨%_, H2⟩, ⟨%_, H3⟩, ⟨%_, H4⟩⟩
    iapply (run4 fun _ => hc1)
    simp only [if_pos hc0, if_neg hc1]
    iframe
    iintro ⟨$, $, $, $, H4, $, $⟩
    iexists _; iexact H4
  · have hc0 : ¬cond4_0 (grid4.coords ⟨n + 1, hn⟩) := fun h => absurd ((hcond4_0 _).mp h) (Nat.succ_ne_zero n)
    iintro ⟨⟨⟨⟨HS0, HS1⟩, HR⟩, Hg⟩, Ho, ⟨%_, H0⟩, ⟨%_, H1⟩, ⟨%_, H2⟩, ⟨%_, H3⟩, ⟨%_, H4⟩⟩
    by_cases hc1 : cond4_1 (grid4.coords ⟨n + 1, hn⟩)
    · rw [show (dat4 V c).leavesExact 4 ⟨n + 1, hn⟩ = owns c.tc (st4_4 ⟨n + 1, hn⟩) fullShare (out4_4 V c ⟨n + 1, hn⟩) from by
        unfold Dat.leavesExact; rw [liveAt4_4 _ hc1, after4_4]]
      simp only [out4_4, sc4]
      iapply (run4 fun h => absurd h hc0)
      simp only [if_neg hc0, if_pos hc1]
      iframe
      iintro ⟨$, $, $, $, $, $, $⟩
    · rw [Dat.leavesExact_idle (dat4 V c) 4 _ (idleAt4_4 _ hc1) (noFlush4_4 _ hc1)]
      iapply (run4 fun h => absurd h hc0)
      simp only [if_neg hc0, if_neg hc1]
      iframe
      iintro ⟨$, $, $, $, H4, $, $⟩
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  exact sep_mono_left (sep_mono_left (sep_mono (exists_intro _) (exists_intro _)))

end Cert.KernelIdeal.Fr

end
-- ==== Proof.KI.Tower.lean ====
import proofs.«419602_j28836410425874_3_alg».proof.Proof.KI.Reg0
import proofs.«419602_j28836410425874_3_alg».proof.Proof.KI.Reg1
import proofs.«419602_j28836410425874_3_alg».proof.Proof.KI.Reg2
import proofs.«419602_j28836410425874_3_alg».proof.Proof.KI.Reg3
import proofs.«419602_j28836410425874_3_alg».proof.Proof.KI.Reg4
import proofs.«419602_j28836410425874_3_alg».proof.Proof.Gen.KernelIdeal.Regions

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev X3 (c : Dev nD) : Valuation τ sig (Elt F) := Gen.V3 m c

def a4 (c : Dev nD) : Buf (Elt F) ((c : Thread nD τ).loc main_v28_0) := (dat0 (atTc (X3 m)) c).arrAt 3 cfg0.N
def b4 (c : Dev nD) : Buf (Elt F) ((c : Thread nD τ).loc main_v28_1) := (dat0 (atTc (X3 m)) c).arrAt 4 cfg0.N

abbrev X4 (c : Dev nD) : Valuation τ sig (Elt F) := Function.update (Function.update (X3 m c) main_v28_0 (a4 m c)) main_v28_1 (b4 m c)

abbrev X5 (c : Dev nD) : Valuation τ sig (Elt F) := StableHlo.after hostOps1 (X4 m c)
def a6 (c : Dev nD) : Buf (Elt F) ((c : Thread nD τ).loc main_v41) := (dat1 (atTc (X5 m)) c).arrAt 4 cfg1.N

abbrev X6 (c : Dev nD) : Valuation τ sig (Elt F) := Function.update (X5 m c) main_v41 (a6 m c)
def a7 (c : Dev nD) : Buf (Elt F) ((c : Thread nD τ).loc main_v42_0) := (dat2 (atTc (X6 m)) c).arrAt 3 cfg2.N
def b7 (c : Dev nD) : Buf (Elt F) ((c : Thread nD τ).loc main_v42_1) := (dat2 (atTc (X6 m)) c).arrAt 4 cfg2.N

abbrev X7 (c : Dev nD) : Valuation τ sig (Elt F) := Function.update (Function.update (X6 m c) main_v42_0 (a7 m c)) main_v42_1 (b7 m c)

abbrev X8 (c : Dev nD) : Valuation τ sig (Elt F) := StableHlo.after hostOps3 (X7 m c)
def a9 (c : Dev nD) : Buf (Elt F) ((c : Thread nD τ).loc main_v55) := (dat3 (atTc (X8 m)) c).arrAt 4 cfg3.N

abbrev X9 (c : Dev nD) : Valuation τ sig (Elt F) := Function.update (X8 m c) main_v55 (a9 m c)

abbrev X10 (c : Dev nD) : Valuation τ sig (Elt F) := StableHlo.after hostOps4 (X9 m c)

def a11 (c : Dev nD) : Buf (Elt F) ((c : Thread nD τ).loc main_v57) := (dat4 (atTc (X10 m)) c).arrAt 4 cfg4.N

def outs : Outs (F := F) := fun J r c =>
  match J with
  | 4 => Function.update (Function.update (fun r' : Ref sig .tc => (Gen.V0 m c r' : Buf (Elt F) ((c : Thread nD τ).loc r'))) main_v28_0 (a4 m c)) main_v28_1 (b4 m c) r
  | 6 => Function.update (fun r' : Ref sig .tc => (Gen.V0 m c r' : Buf (Elt F) ((c : Thread nD τ).loc r'))) main_v41 (a6 m c) r
  | 7 => Function.update (Function.update (fun r' : Ref sig .tc => (Gen.V0 m c r' : Buf (Elt F) ((c : Thread nD τ).loc r'))) main_v42_0 (a7 m c)) main_v42_1 (b7 m c) r
  | 9 => Function.update (fun r' : Ref sig .tc => (Gen.V0 m c r' : Buf (Elt F) ((c : Thread nD τ).loc r'))) main_v55 (a9 m c) r
  | 11 => Function.update (fun r' : Ref sig .tc => (Gen.V0 m c r' : Buf (Elt F) ((c : Thread nD τ).loc r'))) main_v57 (a11 m c) r
  | _ => Gen.V0 m c r

theorem outs_4a (c : Dev nD) : outs m 4 main_v28_0 c = a4 m c := by
  unfold outs
  exact (Function.update_of_ne (by decide) _ _).trans (Function.update_self _ _ _)
theorem outs_4b (c : Dev nD) : outs m 4 main_v28_1 c = b4 m c := by
  unfold outs
  exact Function.update_self _ _ _
theorem outs_6 (c : Dev nD) : outs m 6 main_v41 c = a6 m c := by
  unfold outs
  exact Function.update_self _ _ _
theorem outs_7a (c : Dev nD) : outs m 7 main_v42_0 c = a7 m c := by
  unfold outs
  exact (Function.update_of_ne (by decide) _ _).trans (Function.update_self _ _ _)
theorem outs_7b (c : Dev nD) : outs m 7 main_v42_1 c = b7 m c := by
  unfold outs
  exact Function.update_self _ _ _
theorem outs_9 (c : Dev nD) : outs m 9 main_v55 c = a9 m c := by
  unfold outs
  exact Function.update_self _ _ _

theorem outs_11 (c : Dev nD) : outs m 11 main_v57 c = a11 m c := by
  unfold outs
  exact Function.update_self _ _ _

theorem hV4 (c : Dev nD) : Gen.V4 m (outs m) c = X4 m c := by
  show Function.update (Function.update (Gen.V3 m c) main_v28_0 (outs m 4 main_v28_0 c)) main_v28_1 (outs m 4 main_v28_1 c) = _
  rw [outs_4a, outs_4b]
theorem hV5 (c : Dev nD) : Gen.V5 m (outs m) c = X5 m c := by
  show StableHlo.after hostOps1 (Gen.V4 m (outs m) c) = _
  rw [hV4]
theorem hV6 (c : Dev nD) : Gen.V6 m (outs m) c = X6 m c := by
  show Function.update (Gen.V5 m (outs m) c) main_v41 (outs m 6 main_v41 c) = _
  rw [outs_6, hV5]
theorem hV7 (c : Dev nD) : Gen.V7 m (outs m) c = X7 m c := by
  show Function.update (Function.update (Gen.V6 m (outs m) c) main_v42_0 (outs m 7 main_v42_0 c)) main_v42_1 (outs m 7 main_v42_1 c) = _
  rw [outs_7a, outs_7b, hV6]
theorem hV8 (c : Dev nD) : Gen.V8 m (outs m) c = X8 m c := by
  show StableHlo.after hostOps3 (Gen.V7 m (outs m) c) = _
  rw [hV7]
theorem hV9 (c : Dev nD) : Gen.V9 m (outs m) c = X9 m c := by
  show Function.update (Gen.V8 m (outs m) c) main_v55 (outs m 9 main_v55 c) = _
  rw [outs_9, hV8]
theorem hV10 (c : Dev nD) : Gen.V10 m (outs m) c = X10 m c := by
  show StableHlo.after hostOps4 (Gen.V9 m (outs m) c) = _
  rw [hV9]

end Cert.KernelIdeal.Fr

end
-- ==== Proof.KI.Regs.lean ====
import proofs.«419602_j28836410425874_3_alg».proof.Proof.KI.Tower

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (cfgs p) c
  | ⟨0, _⟩ => fun c => dat0 (atTc (X3 m)) c
  | ⟨1, _⟩ => fun c => dat1 (atTc (X5 m)) c
  | ⟨2, _⟩ => fun c => dat2 (atTc (X6 m)) c
  | ⟨3, _⟩ => fun c => dat3 (atTc (X8 m)) c
  | ⟨4, _⟩ => fun c => dat4 (atTc (X10 m)) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem Rr_owes (c : Dev nD) : Rr (F := F) c ⊢ iprop(∃ W, owes (c : Thread nD τ) (0 : CellTallies nD τ sig Unit) W) := by
  iintro ⟨-, HO⟩
  iexact HO

section Region
variable {p : Fin 5} (lf : Pipeline.LaunchFacts (nD := nD) (τ := τ) cfgs p) (Xi Xo : Dev nD → Valuation τ sig (Elt F))
  (Wl : List (Ref sig .tc))

set_option backward.isDefEq.respectTransparency.types false in
/-- A region that owes nothing and changes only the arrays `Wl`: off `Wl` the exit contents are the entry contents. -/
def mkReg (hbody : ∀ c, BodyObligation (pdats m p c) (defs₀ (F := F)) Variants.none () Set.univ)
    (hq : ∀ c w, (pdats m p c).q w = fullShare)
    (hA : ∀ c w, (pdats m p c).A w = atTc Xi c (Pipeline.arrRef (cfgs p).spec w))
    (ho : ∀ c t, (pdats m p c).owed t = 0) (hr : ∀ c x, x ∈ (pdats m p c).recorded 0)
    (hof : ∀ c r, r ∉ Wl → Xo c r = Xi c r)
    (hsub : ∀ r ∈ Wl, r ∈ Finset.univ.image (Pipeline.arrRef (cfgs p).spec))
    (hkeep : ∀ w, ((cfgs p).win w).isOut = false → Pipeline.arrRef (cfgs p).spec w ∉ Wl)
    (hwr : ∀ c w, ((cfgs p).win w).isOut = true → (pdats m p c).arrAt w (cfgs p).N = atTc Xo c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (Xi c) ∗ Rr c)
  post c := iprop(StableHlo.held (c : Thread nD τ) (Pipeline.ucRefs τ sig) (Xo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atTc Xi c)
  hentry c := by
    have hsplit := Pipeline.arrays_of_unscopedBufs (p := p) (pcfgs (F := F)) Gen.adm (pdats m) lf.win lf.arr_whole c
      ((pdats m p c).share_full (hq c)) (atTc Xi c) (hA c)
    rw [Pipeline.unscopedBufs_held] at hsplit
    unfold Pipeline.prefHeld Pipeline.Dat.owesAt Pipeline.owesWithin
    rw [show (Finset.univ : Finset (Fin 0)) = ∅ from rfl, BI.bigSep_empty, ho c 0]
    iintro ⟨⟨Hb, Hg, %W, Hd⟩, -, -⟩
    ihave Hs := hsplit $$ Hb
    icases Hs with ⟨Ha, Hz⟩
    imodintro
    isplitl [Ha]
    · iexact Ha
    isplitr
    · iempintro
    isplitl [Hd]
    · iexists W
      isplitr
      · ipureintro
        exact fun x _ => Or.inl (hr c x)
      iexact Hd
    isplitl [Hg]
    · iexact Hg
    iexact Hz
  hin c := by
    refine .trans ?_ (hin c)
    unfold Pipeline.ΦA
    iintro ⟨Hg, -, Hs⟩
    iframe
  hout c := by
    rw [Pipeline.ownSems0_none]
    refine (hout c).trans ?_
    unfold Pipeline.ΦA
    iintro ⟨Hs, Hg⟩
    iframe
    iempintro
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atTc Xi c) (atTc Xo c) ((pdats m p c).arrAt · (cfgs p).N)
      (fun w => by
        cases hw : ((cfgs p).win w).isOut
        · exact (((pdats m p c).arrAt_in w hw _).trans (hA c w)).trans (hof c _ (hkeep w hw)).symm
        · exact hwr c w hw)
      (fun b hb => hof c b fun h => hb (hsub b h))
    rw [Pipeline.unscopedBufs_held] at hjoin
    unfold Pipeline.Dat.owesAt Pipeline.owesWithin
    rw [ho c]
    iintro ⟨Ha, ⟨%W, -, Hd⟩, Hg, Hz⟩
    imodintro
    isplitl [Ha Hz]
    · iapply hjoin
      iframe
    isplitl [Hg]
    · iexact Hg
    iexists W
    iexact Hd

end Region

def reg0 : Pipeline.RegionSeg (pcfgs (F := F)) Gen.adm (pdats m) () defs₀ 𝒱₀ L lv 0 :=
  mkReg m launch0 (Gen.V3 m) (Gen.V4 m (outs m)) [main_v28_0, main_v28_1] (fun c => body_obligation0 _ c) (fun _ _ => rfl)
    (A_eq0 _) (fun _ _ => rfl) (fun _ _ => trivial) (Gen.V4_of m (outs m)) (by decide) (by decide)
    (fun c w => match w with
      | ⟨0, _⟩ | ⟨1, _⟩ | ⟨2, _⟩ => fun h => (Bool.false_ne_true h).elim
      | ⟨3, _⟩ => fun _ => by
        have e : (Proc.devRef .tc main_v28_0 : DevRef τ sig) ≠ Proc.devRef .tc main_v28_1 := StableHlo.devRef_ne_of_ne (by decide)
        show a4 m c = Gen.V4 m (outs m) c main_v28_0
        simp only [Function.update_of_ne e, Function.update_self, outs_4a]
      | ⟨4, _⟩ => fun _ => by
        show b4 m c = Gen.V4 m (outs m) c main_v28_1
        simp only [Function.update_self, outs_4b])
    (fun _ => .rfl) (fun _ => .rfl)

def reg1 : Pipeline.RegionSeg (pcfgs (F := F)) Gen.adm (pdats m) () defs₀ 𝒱₀ L lv 1 :=
  mkReg m launch1 (Gen.V5 m (outs m)) (Gen.V6 m (outs m)) [main_v41] (fun c => body_obligation1 _ c) (fun _ _ => rfl)
    (fun c w => (A_eq1 _ c w).trans (congrFun (hV5 m c) _).symm) (fun _ _ => rfl) (fun _ _ => trivial) (Gen.V6_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a6 m c = Gen.V6 m (outs m) c main_v41
        simp only [Function.update_self, outs_6])
    (fun _ => .rfl) (fun _ => .rfl)

def reg2 : Pipeline.RegionSeg (pcfgs (F := F)) Gen.adm (pdats m) () defs₀ 𝒱₀ L lv 2 :=
  mkReg m launch2 (Gen.V6 m (outs m)) (Gen.V7 m (outs m)) [main_v42_0, main_v42_1] (fun c => body_obligation2 _ c) (fun _ _ => rfl)
    (fun c w => (A_eq2 _ c w).trans (congrFun (hV6 m c) _).symm) (fun _ _ => rfl) (fun _ _ => trivial) (Gen.V7_of m (outs m)) (by decide) (by decide)
    (fun c w => match w with
      | ⟨0, _⟩ | ⟨1, _⟩ | ⟨2, _⟩ => fun h => (Bool.false_ne_true h).elim
      | ⟨3, _⟩ => fun _ => by
        have e : (Proc.devRef .tc main_v42_0 : DevRef τ sig) ≠ Proc.devRef .tc main_v42_1 := StableHlo.devRef_ne_of_ne (by decide)
        show a7 m c = Gen.V7 m (outs m) c main_v42_0
        simp only [Function.update_of_ne e, Function.update_self, outs_7a]
      | ⟨4, _⟩ => fun _ => by
        show b7 m c = Gen.V7 m (outs m) c main_v42_1
        simp only [Function.update_self, outs_7b])
    (fun _ => .rfl) (fun _ => .rfl)

def reg3 : Pipeline.RegionSeg (pcfgs (F := F)) Gen.adm (pdats m) () defs₀ 𝒱₀ L lv 3 :=
  mkReg m launch3 (Gen.V8 m (outs m)) (Gen.V9 m (outs m)) [main_v55] (fun c => body_obligation3 _ c) (fun _ _ => rfl)
    (fun c w => (A_eq3 _ c w).trans (congrFun (hV8 m c) _).symm) (fun _ _ => rfl) (fun _ _ => trivial) (Gen.V9_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a9 m c = Gen.V9 m (outs m) c main_v55
        simp only [Function.update_self, outs_9])
    (fun _ => .rfl) (fun _ => .rfl)

def reg4 : Pipeline.RegionSeg (pcfgs (F := F)) Gen.adm (pdats m) () defs₀ 𝒱₀ L lv 4 :=
  mkReg m launch4 (Gen.V10 m (outs m)) (Gen.V11 m (outs m)) [main_v57] (fun c => body_obligation4 _ c) (fun _ _ => rfl)
    (fun c w => (A_eq4 _ c w).trans (congrFun (hV10 m c) _).symm) (fun _ _ => rfl) (fun _ _ => trivial) (Gen.V11_of m (outs m)) (by decide) (by decide)
    (fun c w => match w with
      | ⟨0, _⟩ | ⟨1, _⟩ | ⟨2, _⟩ | ⟨3, _⟩ => fun h => (Bool.false_ne_true h).elim
      | ⟨4, _⟩ => fun _ => by
        show a11 m c = Gen.V11 m (outs m) c main_v57
        simp only [Function.update_self, outs_11])
    (hin4 _) (hout4 _)

end Cert.KernelIdeal.Fr

end
-- ==== Proof.KI.RunThm.lean ====
import proofs.«419602_j28836410425874_3_alg».proof.Proof.KI.Regs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev items (c : Dev nD) : List (Seg (pcfgs (F := F)) Gen.adm (pdats m) () defs₀ 𝒱₀ L lv) :=
  Gen.segs m (outs m) 𝒱₀ L lv (fun _ c => Rr c) () (pdats m) (reg0 m) (reg1 m) (reg2 m) (reg3 m) (reg4 m) c

set_option backward.isDefEq.respectTransparency.types false in
/-- @main ends, faultless, with the result array at what the last region leaves in it and every argument as launched. -/
theorem run_valued : θ_run defs (onTc (τ := τ) (main (F := F))) ⟨m, fun _ => 0, ρ⟩ (fun r => ∀ c : Dev nD,
      r.2.mem ((c.tc : Thread nD τ).loc main_v57) = a11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_dev (pcfgs (F := F)) Gen.adm (pdats m) () cellOf_inj emb₁ defs₀ 𝒱₀ L lv m ρ main (items m)
    (fun c Q => by rw [Gen.main_chain c, Seg.run_eq_chain]; rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V11 m (outs m) c))
    (hch := fun c => ⟨.rfl, .rfl, .rfl, .rfl, .rfl, .rfl, .rfl, .rfl, .rfl, .rfl, .rfl, sep_mono .rfl (Rr_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨Hh, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h c =>
      have u := fun (b : Ref sig .tc) (hb : ¬ (Proc.devRef .tc b : DevRef τ sig).isScoped) =>
        h c _ (Finset.mem_filter.mpr ⟨StableHlo.devRef_mem_tcRefs b, hb⟩)
      ⟨(u main_v57 (by decide)).trans ((Function.update_self _ _ _).trans (outs_11 m c)),
       (u main_arg0 (by decide)).trans (Gen.V11_main_arg0 m (outs m) c),
       (u main_arg1 (by decide)).trans (Gen.V11_main_arg1 m (outs m) c),
       (u main_arg2 (by decide)).trans (Gen.V11_main_arg2 m (outs m) c),
       (u main_arg3 (by decide)).trans (Gen.V11_main_arg3 m (outs m) c),
       (u main_arg4 (by decide)).trans (Gen.V11_main_arg4 m (outs m) c),
       (u main_arg5 (by decide)).trans (Gen.V11_main_arg5 m (outs m) c),
       (u main_arg6 (by decide)).trans (Gen.V11_main_arg6 m (outs m) c),
       (u main_arg7 (by decide)).trans (Gen.V11_main_arg7 m (outs m) c),
       (u main_arg8 (by decide)).trans (Gen.V11_main_arg8 m (outs m) c)⟩)

end Cert.KernelIdeal.Fr

end
-- ==== Proof.Val.KVal0.lean ====
import proofs.«419602_j28836410425874_3_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

abbrev x0 (c : Dev nD) : FVec Ideal S50000x96 .f32 := V c (Pipeline.arrRef spec0 0)
abbrev w0 (c : Dev nD) : FVec Ideal S96x96 .f32 := V c (Pipeline.arrRef spec0 1)
abbrev d0 (c : Dev nD) : FVec Ideal S50000x1 .f32 := V c (Pipeline.arrRef spec0 2)

namespace K0

theorem zeros2 : (![0, 0] : Fin 2 → Nat) = fun _ => 0 := funext fun a => by fin_cases a <;> rfl

-- The left operand is read at the output's row and the contraction index, the right one at that index and the output's column.
theorem dot_idx (r : Fin 5000) (k j : Fin 96) (q : dot_S5000x96_S96x96_S5000x96_1_0_0_1_n_n.contr.Idx) (hj : (q ⟨0, by decide⟩).val = j.val) :
    dot_S5000x96_S96x96_S5000x96_1_0_0_1_n_n.lhsIdx (ix2 r k) q = ix2 r j ∧ dot_S5000x96_S96x96_S5000x96_1_0_0_1_n_n.rhsIdx (ix2 r k) q = ix2 j k :=
  ⟨Shape.idx_ext₂ rfl ((DotDims.lhsIdx_val_of_single _ rfl _ q).trans hj),
    Shape.idx_ext₂ ((DotDims.rhsIdx_val_of_single _ rfl _ q).trans hj) rfl⟩

theorem proj_apply (x : Vec Ideal S5000x96 .f32) (w : Vec Ideal S96x96 .f32) (r : Fin 5000) (k : Fin 96) :
    (k0_pay1 x w : FVec Ideal S5000x96 .f32) (ix2 r k) = ∑ j : Fin 96, x (ix2 r j) * w (ix2 j k) := by
  unfold k0_pay1
  refine (Ideal.matmul_constant_zero_apply _ none _ _ (ix2 r k)).trans ?_
  rw [← Equiv.sum_comp (contrEquiv1 dot_S5000x96_S96x96_S5000x96_1_0_0_1_n_n 96 rfl rfl).symm]
  refine Finset.sum_congr rfl fun j _ => ?_
  obtain ⟨el, er⟩ := dot_idx r k j _ (contrEquiv1_symm_val dot_S5000x96_S96x96_S5000x96_1_0_0_1_n_n 96 rfl rfl j)
  rw [el, er]
  simp only [truncf_apply, shapeCast_self]

theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem blk_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

-- Entry y of block m, blocks of size s, is entry s m + y of the array; of block 0, entry y.
theorem at_blk {n m s y i : Nat} (e : n = m) (h : i = s * m + y) : n * s + 1 * y = i := by
  rw [e, h, Nat.one_mul, Nat.mul_comm]
theorem at_zero {n s y i : Nat} (e : n = 0) (h : i = y) : n * s + 1 * y = i := by
  rw [e, h, Nat.zero_mul, Nat.zero_add, Nat.one_mul]

abbrev projArr (c : Dev nD) : FVec Ideal S50000x96 .f32 :=
  fun i => ∑ j : Fin 96, x0 V c (ix2 (i 0) j) * w0 V c (ix2 j (i 1))

abbrev scaledArr (c : Dev nD) : FVec Ideal S50000x96 .bf16 :=
  fun i => projArr V c i * d0 V c (ix2 (i 0) (0 : Fin 1))

-- Row r of block t is row 5000 t + r of the array.
theorem proj_blk (c : Dev nD) (t : Fin cfg0.N) (r : Fin 5000) (k : Fin 96) (i : S50000x96.Idx)
    (hr : (i 0).val = 5000 * t.val + r.val) (hk : (i 1).val = k.val) :
    k0_pay1 (iblk0 V c 0 t) (iblk0 V c 1 t) (ix2 r k) = projArr V c i := by
  obtain ⟨e1, e2, e3, e4, -⟩ := blk_index t
  refine (proj_apply _ _ r k).trans (Finset.sum_congr rfl fun j _ => congrArg₂ (· * ·)
    (congrArg (x0 V c) (Shape.idx_ext₂ ?_ ?_)) (congrArg (w0 V c) (Shape.idx_ext₂ ?_ ?_)))
  · exact at_blk e1 hr
  · exact at_zero e2 rfl
  · exact at_zero e3 rfl
  · exact at_zero e4 hk

theorem scaled_blk (c : Dev nD) (t : Fin cfg0.N) (r : Fin 5000) (k : Fin 96) (i : S50000x96.Idx)
    (hr : (i 0).val = 5000 * t.val + r.val) (hk : (i 1).val = k.val) :
    k0_pay2 (iblk0 V c 0 t) (iblk0 V c 1 t) (iblk0 V c 2 t) (ix2 r k) = scaledArr V c i := by
  obtain ⟨-, -, -, -, e1, e2, -⟩ := blk_index t
  unfold k0_pay2
  rw [shapeCast_self]
  refine (mulf_apply _ _ (ix2 r k)).trans (congrArg₂ (· * ·) (proj_blk V c t r k i hr hk) ?_)
  rw [broadcastTo_a1_ab_apply]
  refine congrArg (d0 V c) (Shape.idx_ext₂ ?_ ?_)
  · exact at_blk e1 hr
  · exact at_zero e2 rfl

theorem flushed3_eq (c : Dev nD) (t : Fin cfg0.N) :
    (dat0 V c).flushed 3 t = ((cfg0.win 3).blk t).view.read (Elt Ideal) (projArr V c) := by
  obtain ⟨-, -, -, -, -, -, e1, e2, -⟩ := blk_index t
  show (cfg0.win 3).cut (grid0.coords t) ((dat0 V c).after 3 t) = _
  rw [after0_3]
  unfold out0_3
  rw [View.canon_unit_zero zeros2, View.ld_unit_zero zeros2, View.ld_unit_zero zeros2]
  funext y
  obtain ⟨r, k, rfl⟩ : ∃ (r : Fin 5000) (k : Fin 96), y = ix2 r k := ⟨y 0, y 1, eq_ix2 y⟩
  exact proj_blk V c t r k _ (at_blk e1 rfl) (at_zero e2 rfl)

theorem flushed4_eq (c : Dev nD) (t : Fin cfg0.N) :
    (dat0 V c).flushed 4 t = ((cfg0.win 4).blk t).view.read (Elt Ideal) (scaledArr V c) := by
  obtain ⟨-, -, -, -, -, -, -, -, e1, e2⟩ := blk_index t
  show (cfg0.win 4).cut (grid0.coords t) ((dat0 V c).after 4 t) = _
  rw [after0_4]
  unfold out0_4
  rw [View.canon_unit_zero zeros2, View.ld_unit_zero zeros2, View.ld_unit_zero zeros2, View.ld_unit_zero zeros2]
  funext y
  obtain ⟨r, k, rfl⟩ : ∃ (r : Fin 5000) (k : Fin 96), y = ix2 r k := ⟨y 0, y 1, eq_ix2 y⟩
  exact scaled_blk V c t r k _ (at_blk e1 rfl) (at_zero e2 rfl)

-- Row i lies in block i / 5000.
theorem cover (i : S50000x96.Idx) :
    (∃ t : Fin cfg0.N, (cfg0.win 3).flush t = true ∧ i ∈ ((cfg0.win 3).blk t).view.set)
      ∧ ∃ t : Fin cfg0.N, (cfg0.win 4).flush t = true ∧ i ∈ ((cfg0.win 4).blk t).view.set := by
  have hi := idx2_lt0 i
  obtain ⟨t, ht⟩ : ∃ t : Fin cfg0.N, t.val = (i 0).val / 5000 := ⟨⟨(i 0).val / 5000, by rw [show cfg0.N = 10 from N_0]; omega⟩, rfl⟩
  obtain ⟨r, hr⟩ : ∃ r : Fin 5000, r.val = (i 0).val % 5000 := ⟨⟨_, Nat.mod_lt _ (by decide)⟩, rfl⟩
  have hm : (i 0).val = 5000 * t.val + r.val := by omega
  obtain ⟨-, -, -, -, -, -, e1, e2, e3, e4⟩ := blk_index t
  have h3 : ((cfg0.win 3).blk t).view.emb (ix2 r (i 1)) = i := Shape.idx_ext₂ (at_blk e1 hm) (at_zero e2 rfl)
  have h4 : ((cfg0.win 4).blk t).view.emb (ix2 r (i 1)) = i := Shape.idx_ext₂ (at_blk e3 hm) (at_zero e4 rfl)
  exact ⟨⟨t, flush0_3 t, h3 ▸ View.emb_mem_set _ _⟩, t, flush0_4 t, h4 ▸ View.emb_mem_set _ _⟩

end K0

theorem arrAt0_3_apply (c : Dev nD) (i : Fin 50000) (k : Fin 96) :
    ((dat0 V c).arrAt 3 cfg0.N : FVec Ideal S50000x96 .f32) (ix2 i k) = ∑ j : Fin 96, x0 V c (ix2 i j) * w0 V c (ix2 j k) :=
  congrFun ((dat0 V c).arrAt_eq_of_cover 3 (K0.projArr V c) (fun t _ => K0.flushed3_eq V c t) fun i => (K0.cover i).1) (ix2 i k)

theorem arrAt0_4_apply (c : Dev nD) (i : Fin 50000) (k : Fin 96) :
    ((dat0 V c).arrAt 4 cfg0.N : FVec Ideal S50000x96 .bf16) (ix2 i k) = (∑ j : Fin 96, x0 V c (ix2 i j) * w0 V c (ix2 j k)) * d0 V c (ix2 i 0) :=
  congrFun ((dat0 V c).arrAt_eq_of_cover 4 (K0.scaledArr V c) (fun t _ => K0.flushed4_eq V c t) fun i => (K0.cover i).2) (ix2 i k)

end Cert.KernelIdeal.Val

end
-- ==== Proof.Val.KVal1.lean ====
import proofs.«419602_j28836410425874_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

abbrev a1 (c : Dev nD) : FVec Ideal S50000x96 .f32 := V c (Pipeline.arrRef spec1 0)
abbrev h1 (c : Dev nD) : FVec Ideal S50000x96 .f32 := V c (Pipeline.arrRef spec1 1)
abbrev d1 (c : Dev nD) : FVec Ideal S50000x1 .f32 := V c (Pipeline.arrRef spec1 2)
abbrev b1 (c : Dev nD) : FVec Ideal S1x96 .f32 := V c (Pipeline.arrRef spec1 3)

theorem hz_r1 : (![0, 0] : Fin 2 → Nat) = fun _ => 0 := funext fun a => by fin_cases a <;> rfl

theorem bcastCol_r1 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay_r1 (x0 x1 : Vec Ideal S5000x96 .f32) (x2 : Vec Ideal S5000x1 .f32) (x3 : Vec Ideal S1x96 .f32)
    (r : Fin 5000) (k : Fin 96) :
    k1_pay1 x0 x1 x2 x3 (ix2 r k)
      = max ((x0 (ix2 r k) * x2 (ix2 r 0) + x1 (ix2 r k) * (x2 (ix2 r 0) * x2 (ix2 r 0))) + x3 (ix2 0 k))
          (Ideal.ofBits .f32 0x00000000#32) := by
  unfold k1_pay1
  simp only [shapeCast_self]
  rw [maximumf_apply, addf_apply, addf_apply, mulf_apply, mulf_apply, broadcast_apply,
    bcastCol_r1, bcastCol_r1, broadcastTo_1b_ab_apply, mulf_apply]
  rfl

theorem idx_r1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

-- Entry y of block m, blocks of size s, is entry s m + y of the array; of block 0, entry y.
theorem at_r1 {n m s y i : Nat} (e : n = m) (h : i = s * m + y) : n * s + 1 * y = i := by
  rw [e, h, Nat.one_mul, Nat.mul_comm]
theorem atz_r1 {n s y i : Nat} (e : n = 0) (h : i = y) : n * s + 1 * y = i := by
  rw [e, h, Nat.zero_mul, Nat.zero_add, Nat.one_mul]

abbrev G_r1 (c : Dev nD) : FVec Ideal S50000x96 .f32 := fun j =>
  max ((a1 V c j * d1 V c (ix2 (j 0) 0) + h1 V c j * (d1 V c (ix2 (j 0) 0) * d1 V c (ix2 (j 0) 0))) + b1 V c (ix2 0 (j 1)))
    (Ideal.ofBits .f32 0x00000000#32)

-- Row r of block t is row 5000 t + r of the array.
theorem blk_r1 (c : Dev nD) (t : Fin cfg1.N) (r : Fin 5000) (k : Fin 96) (i : S50000x96.Idx)
    (hr : (i 0).val = 5000 * t.val + r.val) (hk : (i 1).val = k.val) :
    k1_pay1 (iblk1 V c 0 t) (iblk1 V c 1 t) (iblk1 V c 2 t) (iblk1 V c 3 t) (ix2 r k) = G_r1 V c i := by
  obtain ⟨e1, e2, e3, e4, e5, e6, e7, e8, -⟩ := idx_r1 t
  have ha : (iblk1 V c 0 t : Vec Ideal S5000x96 .f32) (ix2 r k) = a1 V c i := congrArg (a1 V c) (Shape.idx_ext₂ (at_r1 e1 hr) (atz_r1 e2 hk))
  have hh : (iblk1 V c 1 t : Vec Ideal S5000x96 .f32) (ix2 r k) = h1 V c i := congrArg (h1 V c) (Shape.idx_ext₂ (at_r1 e3 hr) (atz_r1 e4 hk))
  have hd : (iblk1 V c 2 t : Vec Ideal S5000x1 .f32) (ix2 r 0) = d1 V c (ix2 (i 0) 0) := congrArg (d1 V c) (Shape.idx_ext₂ (at_r1 e5 hr) (atz_r1 e6 rfl))
  have hb : (iblk1 V c 3 t : Vec Ideal S1x96 .f32) (ix2 0 k) = b1 V c (ix2 0 (i 1)) := congrArg (b1 V c) (Shape.idx_ext₂ (atz_r1 e7 rfl) (atz_r1 e8 hk))
  rw [pay_r1, ha, hh, hd, hb]

theorem flushed_r1 (c : Dev nD) (t : Fin cfg1.N) :
    (dat1 V c).flushed 4 t = ((cfg1.win 4).blk t).view.read (Elt Ideal) (G_r1 V c) := by
  obtain ⟨-, -, -, -, -, -, -, -, e1, e2⟩ := idx_r1 t
  show (cfg1.win 4).cut (grid1.coords t) ((dat1 V c).after 4 t) = _
  rw [after1_4]
  unfold out1_4
  rw [View.canon_unit_zero hz_r1, View.ld_unit_zero hz_r1, View.ld_unit_zero hz_r1, View.ld_unit_zero hz_r1, View.ld_unit_zero hz_r1]
  funext y
  obtain ⟨r, k, rfl⟩ : ∃ (r : Fin 5000) (k : Fin 96), y = ix2 r k := ⟨y 0, y 1, eq_ix2 y⟩
  exact blk_r1 V c t r k _ (at_r1 e1 rfl) (atz_r1 e2 rfl)

-- Row i lies in block i / 5000.
theorem covered_r1 (i : S50000x96.Idx) :
    ∃ t : Fin cfg1.N, (cfg1.win 4).flush t = true ∧ i ∈ ((cfg1.win 4).blk t).view.set := by
  have hi := idx2_lt0 i
  obtain ⟨t, ht⟩ : ∃ t : Fin cfg1.N, t.val = (i 0).val / 5000 := ⟨⟨(i 0).val / 5000, by rw [show cfg1.N = 10 from N_1]; omega⟩, rfl⟩
  have hm : (i 0).val = 5000 * t.val + (i 0).val % 5000 := by omega
  obtain ⟨-, -, -, -, -, -, -, -, e1, e2⟩ := idx_r1 t
  have h : ((cfg1.win 4).blk t).view.emb (ix2 (⟨(i 0).val % 5000, Nat.mod_lt _ (by decide)⟩ : Fin 5000) (i 1)) = i :=
    Shape.idx_ext₂ (at_r1 e1 hm) (atz_r1 e2 rfl)
  exact ⟨t, flush1_4 t, h ▸ View.emb_mem_set _ _⟩

theorem arrAt1_4_apply (c : Dev nD) (i : Fin 50000) (k : Fin 96) :
    ((dat1 V c).arrAt 4 cfg1.N : FVec Ideal S50000x96 .f32) (ix2 i k)
      = max ((a1 V c (ix2 i k) * d1 V c (ix2 i 0) + h1 V c (ix2 i k) * (d1 V c (ix2 i 0) * d1 V c (ix2 i 0))) + b1 V c (ix2 0 k))
          (Ideal.ofBits .f32 0x00000000#32) :=
  congrFun ((dat1 V c).arrAt_eq_of_cover 4 (G_r1 V c) (fun t _ => flushed_r1 V c t) covered_r1) (ix2 i k)

end Cert.KernelIdeal.Val

end
-- ==== Proof.Val.KVal2.lean ====
import proofs.«419602_j28836410425874_3_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

abbrev x2 (c : Dev nD) : FVec Ideal S50000x96 .f32 := V c (Pipeline.arrRef spec2 0)
abbrev w2 (c : Dev nD) : FVec Ideal S96x96 .f32 := V c (Pipeline.arrRef spec2 1)
abbrev d2 (c : Dev nD) : FVec Ideal S50000x1 .f32 := V c (Pipeline.arrRef spec2 2)

namespace K2

theorem zeros2 : (![0, 0] : Fin 2 → Nat) = fun _ => 0 := funext fun a => by fin_cases a <;> rfl

-- The left operand is read at the output's row and the contraction index, the right one at that index and the output's column.
theorem dot_idx (r : Fin 5000) (k j : Fin 96) (q : dot_S5000x96_S96x96_S5000x96_1_0_0_1_n_n.contr.Idx) (hj : (q ⟨0, by decide⟩).val = j.val) :
    dot_S5000x96_S96x96_S5000x96_1_0_0_1_n_n.lhsIdx (ix2 r k) q = ix2 r j ∧ dot_S5000x96_S96x96_S5000x96_1_0_0_1_n_n.rhsIdx (ix2 r k) q = ix2 j k :=
  ⟨Shape.idx_ext₂ rfl ((DotDims.lhsIdx_val_of_single _ rfl _ q).trans hj),
    Shape.idx_ext₂ ((DotDims.rhsIdx_val_of_single _ rfl _ q).trans hj) rfl⟩

theorem proj_apply (x : Vec Ideal S5000x96 .f32) (w : Vec Ideal S96x96 .f32) (r : Fin 5000) (k : Fin 96) :
    (k2_pay1 x w : FVec Ideal S5000x96 .f32) (ix2 r k) = ∑ j : Fin 96, x (ix2 r j) * w (ix2 j k) := by
  unfold k2_pay1
  refine (Ideal.matmul_constant_zero_apply _ none _ _ (ix2 r k)).trans ?_
  rw [← Equiv.sum_comp (contrEquiv1 dot_S5000x96_S96x96_S5000x96_1_0_0_1_n_n 96 rfl rfl).symm]
  refine Finset.sum_congr rfl fun j _ => ?_
  obtain ⟨el, er⟩ := dot_idx r k j _ (contrEquiv1_symm_val dot_S5000x96_S96x96_S5000x96_1_0_0_1_n_n 96 rfl rfl j)
  rw [el, er]
  simp only [truncf_apply, shapeCast_self]

theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem blk_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

-- Entry y of block m, blocks of size s, is entry s m + y of the array; of block 0, entry y.
theorem at_blk {n m s y i : Nat} (e : n = m) (h : i = s * m + y) : n * s + 1 * y = i := by
  rw [e, h, Nat.one_mul, Nat.mul_comm]
theorem at_zero {n s y i : Nat} (e : n = 0) (h : i = y) : n * s + 1 * y = i := by
  rw [e, h, Nat.zero_mul, Nat.zero_add, Nat.one_mul]

abbrev projArr (c : Dev nD) : FVec Ideal S50000x96 .f32 :=
  fun i => ∑ j : Fin 96, x2 V c (ix2 (i 0) j) * w2 V c (ix2 j (i 1))

abbrev scaledArr (c : Dev nD) : FVec Ideal S50000x96 .bf16 :=
  fun i => projArr V c i * d2 V c (ix2 (i 0) (0 : Fin 1))

-- Row r of block t is row 5000 t + r of the array.
theorem proj_blk (c : Dev nD) (t : Fin cfg2.N) (r : Fin 5000) (k : Fin 96) (i : S50000x96.Idx)
    (hr : (i 0).val = 5000 * t.val + r.val) (hk : (i 1).val = k.val) :
    k2_pay1 (iblk2 V c 0 t) (iblk2 V c 1 t) (ix2 r k) = projArr V c i := by
  obtain ⟨e1, e2, e3, e4, -⟩ := blk_index t
  refine (proj_apply _ _ r k).trans (Finset.sum_congr rfl fun j _ => congrArg₂ (· * ·)
    (congrArg (x2 V c) (Shape.idx_ext₂ ?_ ?_)) (congrArg (w2 V c) (Shape.idx_ext₂ ?_ ?_)))
  · exact at_blk e1 hr
  · exact at_zero e2 rfl
  · exact at_zero e3 rfl
  · exact at_zero e4 hk

theorem scaled_blk (c : Dev nD) (t : Fin cfg2.N) (r : Fin 5000) (k : Fin 96) (i : S50000x96.Idx)
    (hr : (i 0).val = 5000 * t.val + r.val) (hk : (i 1).val = k.val) :
    k2_pay2 (iblk2 V c 0 t) (iblk2 V c 1 t) (iblk2 V c 2 t) (ix2 r k) = scaledArr V c i := by
  obtain ⟨-, -, -, -, e1, e2, -⟩ := blk_index t
  unfold k2_pay2
  rw [shapeCast_self]
  refine (mulf_apply _ _ (ix2 r k)).trans (congrArg₂ (· * ·) (proj_blk V c t r k i hr hk) ?_)
  rw [broadcastTo_a1_ab_apply]
  refine congrArg (d2 V c) (Shape.idx_ext₂ ?_ ?_)
  · exact at_blk e1 hr
  · exact at_zero e2 rfl

theorem flushed3_eq (c : Dev nD) (t : Fin cfg2.N) :
    (dat2 V c).flushed 3 t = ((cfg2.win 3).blk t).view.read (Elt Ideal) (projArr V c) := by
  obtain ⟨-, -, -, -, -, -, e1, e2, -⟩ := blk_index t
  show (cfg2.win 3).cut (grid2.coords t) ((dat2 V c).after 3 t) = _
  rw [after2_3]
  unfold out2_3
  rw [View.canon_unit_zero zeros2, View.ld_unit_zero zeros2, View.ld_unit_zero zeros2]
  funext y
  obtain ⟨r, k, rfl⟩ : ∃ (r : Fin 5000) (k : Fin 96), y = ix2 r k := ⟨y 0, y 1, eq_ix2 y⟩
  exact proj_blk V c t r k _ (at_blk e1 rfl) (at_zero e2 rfl)

theorem flushed4_eq (c : Dev nD) (t : Fin cfg2.N) :
    (dat2 V c).flushed 4 t = ((cfg2.win 4).blk t).view.read (Elt Ideal) (scaledArr V c) := by
  obtain ⟨-, -, -, -, -, -, -, -, e1, e2⟩ := blk_index t
  show (cfg2.win 4).cut (grid2.coords t) ((dat2 V c).after 4 t) = _
  rw [after2_4]
  unfold out2_4
  rw [View.canon_unit_zero zeros2, View.ld_unit_zero zeros2, View.ld_unit_zero zeros2, View.ld_unit_zero zeros2]
  funext y
  obtain ⟨r, k, rfl⟩ : ∃ (r : Fin 5000) (k : Fin 96), y = ix2 r k := ⟨y 0, y 1, eq_ix2 y⟩
  exact scaled_blk V c t r k _ (at_blk e1 rfl) (at_zero e2 rfl)

-- Row i lies in block i / 5000.
theorem cover (i : S50000x96.Idx) :
    (∃ t : Fin cfg2.N, (cfg2.win 3).flush t = true ∧ i ∈ ((cfg2.win 3).blk t).view.set)
      ∧ ∃ t : Fin cfg2.N, (cfg2.win 4).flush t = true ∧ i ∈ ((cfg2.win 4).blk t).view.set := by
  have hi := idx2_lt0 i
  obtain ⟨t, ht⟩ : ∃ t : Fin cfg2.N, t.val = (i 0).val / 5000 := ⟨⟨(i 0).val / 5000, by rw [show cfg2.N = 10 from N_2]; omega⟩, rfl⟩
  obtain ⟨r, hr⟩ : ∃ r : Fin 5000, r.val = (i 0).val % 5000 := ⟨⟨_, Nat.mod_lt _ (by decide)⟩, rfl⟩
  have hm : (i 0).val = 5000 * t.val + r.val := by omega
  obtain ⟨-, -, -, -, -, -, e1, e2, e3, e4⟩ := blk_index t
  have h3 : ((cfg2.win 3).blk t).view.emb (ix2 r (i 1)) = i := Shape.idx_ext₂ (at_blk e1 hm) (at_zero e2 rfl)
  have h4 : ((cfg2.win 4).blk t).view.emb (ix2 r (i 1)) = i := Shape.idx_ext₂ (at_blk e3 hm) (at_zero e4 rfl)
  exact ⟨⟨t, flush2_3 t, h3 ▸ View.emb_mem_set _ _⟩, t, flush2_4 t, h4 ▸ View.emb_mem_set _ _⟩

end K2

theorem arrAt2_3_apply (c : Dev nD) (i : Fin 50000) (k : Fin 96) :
    ((dat2 V c).arrAt 3 cfg2.N : FVec Ideal S50000x96 .f32) (ix2 i k) = ∑ j : Fin 96, x2 V c (ix2 i j) * w2 V c (ix2 j k) :=
  congrFun ((dat2 V c).arrAt_eq_of_cover 3 (K2.projArr V c) (fun t _ => K2.flushed3_eq V c t) fun i => (K2.cover i).1) (ix2 i k)

theorem arrAt2_4_apply (c : Dev nD) (i : Fin 50000) (k : Fin 96) :
    ((dat2 V c).arrAt 4 cfg2.N : FVec Ideal S50000x96 .bf16) (ix2 i k) = (∑ j : Fin 96, x2 V c (ix2 i j) * w2 V c (ix2 j k)) * d2 V c (ix2 i 0) :=
  congrFun ((dat2 V c).arrAt_eq_of_cover 4 (K2.scaledArr V c) (fun t _ => K2.flushed4_eq V c t) fun i => (K2.cover i).2) (ix2 i k)

end Cert.KernelIdeal.Val

end
-- ==== Proof.Val.KVal3.lean ====
import proofs.«419602_j28836410425874_3_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

abbrev a3 (c : Dev nD) : FVec Ideal S50000x96 .f32 := V c (Pipeline.arrRef spec3 0)
abbrev h3 (c : Dev nD) : FVec Ideal S50000x96 .f32 := V c (Pipeline.arrRef spec3 1)
abbrev d3 (c : Dev nD) : FVec Ideal S50000x1 .f32 := V c (Pipeline.arrRef spec3 2)
abbrev b3 (c : Dev nD) : FVec Ideal S1x96 .f32 := V c (Pipeline.arrRef spec3 3)

theorem hz_r3 : (![0, 0] : Fin 2 → Nat) = fun _ => 0 := funext fun a => by fin_cases a <;> rfl

theorem bcastCol_r3 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem pay_r3 (x0 x1 : Vec Ideal S5000x96 .f32) (x2 : Vec Ideal S5000x1 .f32) (x3 : Vec Ideal S1x96 .f32)
    (r : Fin 5000) (k : Fin 96) :
    k3_pay1 x0 x1 x2 x3 (ix2 r k)
      = max ((x0 (ix2 r k) * x2 (ix2 r 0) + x1 (ix2 r k) * (x2 (ix2 r 0) * x2 (ix2 r 0))) + x3 (ix2 0 k))
          (Ideal.ofBits .f32 0x00000000#32) := by
  unfold k3_pay1
  simp only [shapeCast_self]
  rw [maximumf_apply, addf_apply, addf_apply, mulf_apply, mulf_apply, broadcast_apply,
    bcastCol_r3, bcastCol_r3, broadcastTo_1b_ab_apply, mulf_apply]
  rfl

theorem idx_r3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

-- Entry y of block m, blocks of size s, is entry s m + y of the array; of block 0, entry y.
theorem at_r3 {n m s y i : Nat} (e : n = m) (h : i = s * m + y) : n * s + 1 * y = i := by
  rw [e, h, Nat.one_mul, Nat.mul_comm]
theorem atz_r3 {n s y i : Nat} (e : n = 0) (h : i = y) : n * s + 1 * y = i := by
  rw [e, h, Nat.zero_mul, Nat.zero_add, Nat.one_mul]

abbrev G_r3 (c : Dev nD) : FVec Ideal S50000x96 .f32 := fun j =>
  max ((a3 V c j * d3 V c (ix2 (j 0) 0) + h3 V c j * (d3 V c (ix2 (j 0) 0) * d3 V c (ix2 (j 0) 0))) + b3 V c (ix2 0 (j 1)))
    (Ideal.ofBits .f32 0x00000000#32)

-- Row r of block t is row 5000 t + r of the array.
theorem blk_r3 (c : Dev nD) (t : Fin cfg3.N) (r : Fin 5000) (k : Fin 96) (i : S50000x96.Idx)
    (hr : (i 0).val = 5000 * t.val + r.val) (hk : (i 1).val = k.val) :
    k3_pay1 (iblk3 V c 0 t) (iblk3 V c 1 t) (iblk3 V c 2 t) (iblk3 V c 3 t) (ix2 r k) = G_r3 V c i := by
  obtain ⟨e1, e2, e3, e4, e5, e6, e7, e8, -⟩ := idx_r3 t
  have ha : (iblk3 V c 0 t : Vec Ideal S5000x96 .f32) (ix2 r k) = a3 V c i := congrArg (a3 V c) (Shape.idx_ext₂ (at_r3 e1 hr) (atz_r3 e2 hk))
  have hh : (iblk3 V c 1 t : Vec Ideal S5000x96 .f32) (ix2 r k) = h3 V c i := congrArg (h3 V c) (Shape.idx_ext₂ (at_r3 e3 hr) (atz_r3 e4 hk))
  have hd : (iblk3 V c 2 t : Vec Ideal S5000x1 .f32) (ix2 r 0) = d3 V c (ix2 (i 0) 0) := congrArg (d3 V c) (Shape.idx_ext₂ (at_r3 e5 hr) (atz_r3 e6 rfl))
  have hb : (iblk3 V c 3 t : Vec Ideal S1x96 .f32) (ix2 0 k) = b3 V c (ix2 0 (i 1)) := congrArg (b3 V c) (Shape.idx_ext₂ (atz_r3 e7 rfl) (atz_r3 e8 hk))
  rw [pay_r3, ha, hh, hd, hb]

theorem flushed_r3 (c : Dev nD) (t : Fin cfg3.N) :
    (dat3 V c).flushed 4 t = ((cfg3.win 4).blk t).view.read (Elt Ideal) (G_r3 V c) := by
  obtain ⟨-, -, -, -, -, -, -, -, e1, e2⟩ := idx_r3 t
  show (cfg3.win 4).cut (grid3.coords t) ((dat3 V c).after 4 t) = _
  rw [after3_4]
  unfold out3_4
  rw [View.canon_unit_zero hz_r3, View.ld_unit_zero hz_r3, View.ld_unit_zero hz_r3, View.ld_unit_zero hz_r3, View.ld_unit_zero hz_r3]
  funext y
  obtain ⟨r, k, rfl⟩ : ∃ (r : Fin 5000) (k : Fin 96), y = ix2 r k := ⟨y 0, y 1, eq_ix2 y⟩
  exact blk_r3 V c t r k _ (at_r3 e1 rfl) (atz_r3 e2 rfl)

-- Row i lies in block i / 5000.
theorem covered_r3 (i : S50000x96.Idx) :
    ∃ t : Fin cfg3.N, (cfg3.win 4).flush t = true ∧ i ∈ ((cfg3.win 4).blk t).view.set := by
  have hi := idx2_lt0 i
  obtain ⟨t, ht⟩ : ∃ t : Fin cfg3.N, t.val = (i 0).val / 5000 := ⟨⟨(i 0).val / 5000, by rw [show cfg3.N = 10 from N_3]; omega⟩, rfl⟩
  have hm : (i 0).val = 5000 * t.val + (i 0).val % 5000 := by omega
  obtain ⟨-, -, -, -, -, -, -, -, e1, e2⟩ := idx_r3 t
  have h : ((cfg3.win 4).blk t).view.emb (ix2 (⟨(i 0).val % 5000, Nat.mod_lt _ (by decide)⟩ : Fin 5000) (i 1)) = i :=
    Shape.idx_ext₂ (at_r3 e1 hm) (atz_r3 e2 rfl)
  exact ⟨t, flush3_4 t, h ▸ View.emb_mem_set _ _⟩

theorem arrAt3_4_apply (c : Dev nD) (i : Fin 50000) (k : Fin 96) :
    ((dat3 V c).arrAt 4 cfg3.N : FVec Ideal S50000x96 .f32) (ix2 i k)
      = max ((a3 V c (ix2 i k) * d3 V c (ix2 i 0) + h3 V c (ix2 i k) * (d3 V c (ix2 i 0) * d3 V c (ix2 i 0))) + b3 V c (ix2 0 k))
          (Ideal.ofBits .f32 0x00000000#32) :=
  congrFun ((dat3 V c).arrAt_eq_of_cover 4 (G_r3 V c) (fun t _ => flushed_r3 V c t) covered_r3) (ix2 i k)

end Cert.KernelIdeal.Val

end
-- ==== Proof.Val.KVal4.lean ====
import proofs.«419602_j28836410425874_3_alg».proof.Proof.KI.Reg4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic TcCoe ValueIdx Idealize.SL.Sem Gen Fr

variable (V : (c : Dev nD) → (b : Ref sig .tc) → Buf (Elt Ideal) ((c : Thread nD τ).loc b))

abbrev x4 (c : Dev nD) : FVec Ideal S50000x96 .f32 := V c (Pipeline.arrRef spec4 0)
abbrev ids4 (c : Dev nD) : IVec S50000x1 32 := V c (Pipeline.arrRef spec4 1)
abbrev wfc4 (c : Dev nD) : FVec Ideal S96x10 .f32 := V c (Pipeline.arrRef spec4 2)
abbrev bfc4 (c : Dev nD) : FVec Ideal S1x10 .f32 := V c (Pipeline.arrRef spec4 3)

def hot (c : Dev nD) (n : Fin 50000) (g : Fin 64) : EReal :=
  if ids4 V c (ix2 n 0) = BitVec.ofNat 32 g.val then ((1 : ℝ) : EReal) else ((0 : ℝ) : EReal)

def Ssum (c : Dev nD) (g : Fin 64) (j : Fin 96) : EReal :=
  Ideal.ofBits .f32 0x00000000#32 + ∑ n : Fin 50000, hot V c n g * x4 V c (ix2 n j)

def Scnt (c : Dev nD) (g : Fin 64) : EReal :=
  Ideal.ofBits .f32 0x00000000#32 + ∑ n : Fin 50000, hot V c n g * Ideal.ofBits .f32 0x3F800000#32

namespace K4

/-- Row `r` of block `t`. -/
def rowOf (t : ℕ) (r : Fin 5000) : Fin 50000 := ⟨(5000 * t + r) % 50000, Nat.mod_lt _ (by decide)⟩

/-- Ten blocks of 5000 rows are the 50000 rows. -/
theorem sum_rowOf {M : Type*} [AddCommMonoid M] (f : Fin 50000 → M) :
    ∑ t ∈ Finset.range 10, ∑ r, f (rowOf t r) = ∑ n, f n := by
  rw [Finset.sum_range, ← Fintype.sum_prod_type']
  exact Fintype.sum_equiv finProdFinEquiv _ _ fun p => congrArg f (Fin.ext (by
    show (5000 * p.1.val + p.2.val) % 50000 = p.2.val + 5000 * p.1.val
    have := p.1.isLt; have := p.2.isLt; omega))

/-- A product contracted over one axis of extent `n`, added to zero: at an index, the sum over `Fin n` of the factors' products. -/
theorem mm_apply {sl sr so : Shape} {φ₁ φ₂ : FTy} (D : DotDims sl sr so) (n : ℕ) (hr : D.contr.rank = 1)
    (hs : D.contr.size ⟨0, by omega⟩ = n) (p : Option ContractPrecision) (A : FVec Ideal sl φ₁) (B : FVec Ideal sr φ₂)
    (i : so.Idx) (L : Fin n → sl.Idx) (R : Fin n → sr.Idx)
    (hL : ∀ k, D.lhsIdx i ((contrEquiv1 D n hr hs).symm k) = L k)
    (hR : ∀ k, D.rhsIdx i ((contrEquiv1 D n hr hs).symm k) = R k) :
    FloatOps.matmul D p A B (constant so .f32 0x00000000#32) i = ∑ k, A (L k) * B (R k) := by
  rw [Ideal.matmul_constant_zero_apply, ← Equiv.sum_comp (contrEquiv1 D n hr hs).symm]
  exact Finset.sum_congr rfl fun k _ => by rw [hL, hR]

/-- The read-out: a graph's totals over its count (at least one), times the read-out matrix, plus the bias. -/
theorem pay6_apply (S : FVec Ideal S64x96 .f32) (C : FVec Ideal S64x1 .f32) (W : FVec Ideal S96x10 .f32) (b : FVec Ideal S1x10 .f32)
    (g : Fin 64) (q : Fin 10) :
    k4_pay6 (F := Ideal) S C W b (ix2 g q)
      = (∑ k : Fin 96, Ideal.div (S (ix2 g k)) (max (C (ix2 g 0)) (Ideal.ofBits .f32 0x3F800000#32)) * W (ix2 k q))
        + b (ix2 0 q) := by
  unfold k4_pay6
  rw [shapeCast_self]
  show FloatOps.matmul _ none _ _ _ (ix2 g q) + broadcastTo S64x10 b _ (ix2 g q) = _
  rw [broadcastTo_1b_ab_apply, mm_apply _ 96 rfl rfl none _ _ _ (fun k => ix2 g k) (fun k => ix2 k q)
    (fun _ => Shape.idx_ext₂ rfl rfl) fun _ => Shape.idx_ext₂ rfl rfl]
  refine congrArg (· + b (ix2 0 q)) (Finset.sum_congr rfl fun k _ => ?_)
  show Ideal.div (S (ix2 g k)) (broadcastTo S64x96 _ _ (ix2 g k)) * W (ix2 k q) = _
  rw [broadcastTo_apply _ _ _ (ix2 g 0) fun a => by fin_cases a <;> rfl]
  rfl

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ (∀ a, win4_2.index t a = 0) ∧ (∀ a, win4_3.index t a = 0) ∧ ∀ a, win4_4.index t a = 0 :=
  (by decide +kernel : ∀ t : Fin grid4.N, _)

/-- Row `r` of the feature and id blocks at point `t` is row `rowOf t r` of the arrays. -/
theorem blk_apply (c : Dev nD) (t : Fin cfg4.N) (r : Fin 5000) :
    (∀ j, iblk4 V c 0 t (ix2 r j) = x4 V c (ix2 (rowOf t r) j)) ∧ iblk4 V c 1 t (ix2 r 0) = ids4 V c (ix2 (rowOf t r) 0) := by
  obtain ⟨e0, e1, f0, f1, -⟩ := idx_facts4 t
  have : t.val < 10 := t.isLt
  exact ⟨fun j => congrArg (x4 V c) (Shape.idx_ext₂ (show win4_0.index t 0 * 5000 + 1 * r.val = (5000 * t + r) % 50000 by omega)
      (show win4_0.index t 1 * 96 + 1 * j.val = j.val by omega)),
    congrArg (ids4 V c) (Shape.idx_ext₂ (show win4_1.index t 0 * 5000 + 1 * r.val = (5000 * t + r) % 50000 by omega)
      (show win4_1.index t 1 * 1 + 1 * 0 = 0 by omega))⟩

/-- The id block compared with the graph numbers is the one-hot weight of the block's rows. -/
theorem hot_block (c : Dev nD) (t : Fin cfg4.N) (r : Fin 5000) (g : Fin 64) :
    k4_pay3 (F := Ideal) (iblk4 V c 1 t) (ix2 r g) = hot V c (rowOf t r) g := by
  unfold k4_pay3 hot
  show ((((BitVec.ofBool (broadcastTo S5000x64 (shapeCast S5000x1 _ _) _ (ix2 r g) == iota .tc S5000x64 32 [1] _ (ix2 r g))).setWidth 32).toInt : ℝ) : EReal) = _
  rw [shapeCast_self, broadcastTo_apply _ _ _ (ix2 r 0) fun a => by fin_cases a <;> rfl, iota_single_apply, (blk_apply V c t r).2]
  by_cases h : ids4 V c (ix2 (rowOf t r) 0) = BitVec.ofNat 32 g.val
  · rw [if_pos h, beq_iff_eq.mpr h, show ((BitVec.ofBool true).setWidth 32).toInt = 1 by decide, Int.cast_one]
  · rw [if_neg h, beq_eq_false_iff_ne.mpr h, show ((BitVec.ofBool false).setWidth 32).toInt = 0 by decide, Int.cast_zero]

/-- A point adds its block's weighted feature sums to the totals, -/
theorem step4 (c : Dev nD) (t : Fin cfg4.N) (acc : FVec Ideal S64x96 .f32) (g : Fin 64) (j : Fin 96) :
    k4_pay4 (F := Ideal) (iblk4 V c 0 t) (iblk4 V c 1 t) acc (ix2 g j)
      = acc (ix2 g j) + ∑ r, hot V c (rowOf t r) g * x4 V c (ix2 (rowOf t r) j) := by
  unfold k4_pay4
  rw [shapeCast_self, shapeCast_self]
  exact congrArg (acc (ix2 g j) + ·) ((mm_apply _ 5000 rfl rfl _ _ _ _ (fun k => ix2 k g) (fun k => ix2 k j)
    (fun _ => Shape.idx_ext₂ rfl rfl) fun _ => Shape.idx_ext₂ rfl rfl).trans
      (Finset.sum_congr rfl fun r _ => by rw [hot_block, (blk_apply V c t r).1]))

/-- and its block's weights to the counts. -/
theorem step5 (c : Dev nD) (t : Fin cfg4.N) (acc : FVec Ideal S64x1 .f32) (g : Fin 64) :
    k4_pay5 (F := Ideal) (iblk4 V c 1 t) acc (ix2 g 0)
      = acc (ix2 g 0) + ∑ r, hot V c (rowOf t r) g * Ideal.ofBits .f32 0x3F800000#32 := by
  unfold k4_pay5
  rw [shapeCast_self]
  exact congrArg (acc (ix2 g 0) + ·) ((mm_apply _ 5000 rfl rfl _ _ _ _ (fun k => ix2 k g) (fun k => ix2 k 0)
    (fun _ => Shape.idx_ext₂ rfl rfl) fun _ => Shape.idx_ext₂ rfl rfl).trans
      (Finset.sum_congr rfl fun r _ => by rw [hot_block]; rfl))

/-- After point `n` the totals are the sums over blocks `0 … n`: induction on `n`. -/
theorem sc4_apply (c : Dev nD) (g : Fin 64) : ∀ (n : ℕ) (hn : n < cfg4.N),
    (∀ j, (sc4 V c n hn).1 (ix2 g j) = Ideal.ofBits .f32 0x00000000#32
      + ∑ t ∈ Finset.range (n + 1), ∑ r, hot V c (rowOf t r) g * x4 V c (ix2 (rowOf t r) j))
    ∧ (sc4 V c n hn).2 (ix2 g 0) = Ideal.ofBits .f32 0x00000000#32
      + ∑ t ∈ Finset.range (n + 1), ∑ r, hot V c (rowOf t r) g * Ideal.ofBits .f32 0x3F800000#32
  | 0, hn => ⟨fun j => (step4 V c ⟨0, hn⟩ _ g j).trans (by rw [Finset.sum_range_one]; rfl),
      (step5 V c ⟨0, hn⟩ _ g).trans (by rw [Finset.sum_range_one]; rfl)⟩
  | n + 1, hn => ⟨fun j => (step4 V c ⟨n + 1, hn⟩ _ g j).trans (by
        rw [(sc4_apply c g n _).1 j, Finset.sum_range_succ _ (n + 1), add_assoc]),
      (step5 V c ⟨n + 1, hn⟩ _ g).trans (by rw [(sc4_apply c g n _).2, Finset.sum_range_succ _ (n + 1), add_assoc])⟩

abbrev lastPt : Fin cfg4.N := ⟨9, by decide⟩

end K4

open K4

/-- The result at an index: the read-out of the totals over all the rows. -/
theorem arrAt4_4_apply (c : Dev nD) (g : Fin 64) (q : Fin 10) :
    ((dat4 V c).arrAt 4 cfg4.N : FVec Ideal S64x10 .f32) (ix2 g q)
      = (∑ j : Fin 96, Ideal.div (Ssum V c g j) (max (Scnt V c g) (Ideal.ofBits .f32 0x3F800000#32)) * wfc4 V c (ix2 j q))
        + bfc4 V c (ix2 0 q) := by
  obtain ⟨-, -, -, -, hw, hb, ho⟩ := idx_facts4 lastPt
  have h := (dat4 V c).arrAt_emb_eq_flushed 4 (fun t t' h h' n => absurd (Fin.ext (by
    have := (flush4_4 t).mp h; have := (flush4_4 t').mp h'; have : t.val < 10 := t.isLt; have : t'.val < 10 := t'.isLt; omega)) n)
    lastPt ((flush4_4 lastPt).mpr rfl) (ix2 g q)
  rw [show ((cfg4.win 4).blk lastPt).view.emb (ix2 g q) = ix2 g q from
    funext fun a => Fin.ext (win4_4.rect_emb_val_of_index_zero lastPt a (ho a) _)] at h
  refine h.trans ((congrFun (after4_4 V c lastPt) _).trans ((pay6_apply _ _ _ _ g q).trans ?_))
  rw [show iblk4 V c 2 lastPt = wfc4 V c from funext fun y => congrArg (wfc4 V c) (funext fun a =>
      Fin.ext (win4_2.rect_emb_val_of_index_zero lastPt a (hw a) y)),
    show iblk4 V c 3 lastPt = bfc4 V c from funext fun y => congrArg (bfc4 V c) (funext fun a =>
      Fin.ext (win4_3.rect_emb_val_of_index_zero lastPt a (hb a) y)),
    (sc4_apply V c g 9 _).2, sum_rowOf fun n => hot V c n g * _]
  refine congrArg (· + bfc4 V c (ix2 0 q)) (Finset.sum_congr rfl fun j _ => ?_)
  rw [(sc4_apply V c g 9 _).1 j, sum_rowOf fun n => hot V c n g * x4 V c (ix2 n j)]
  rfl

end Cert.KernelIdeal.Val

end
-- ==== Proof.Val.HostTerms.lean ====
import proofs.«419602_j28836410425874_3_alg».proof.KernelIdeal

noncomputable section

namespace Cert.KernelIdeal.Val

open Idealize.ShloMosaic
open Cert.KernelIdeal

variable {F : FTy → Type} [FloatOps F] [Facts₀]
open Facts₀

def kSrc (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000

def kDst (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000

def kBatch2d (a2 : (⟨S50000, .i32⟩ : BufTy).Contents (Elt F)) : (⟨S50000x1, .i32⟩ : BufTy).Contents (Elt F) :=
  shapeCast S50000x1 a2 shapeCasts_S50000_S50000x1

def kDinv (a1 : (⟨S2x800000, .i32⟩ : BufTy).Contents (Elt F)) : (⟨S50000, .f32⟩ : BufTy).Contents (Elt F) :=
  Host.rsqrt
    (addf
      (Host.scatterAdd scatter_S50000_S800000x1_S800000_n_0_0_1
        (broadcastInDim S50000 ![] bcast_S_S50000 (constant (F := F) S_ .f32 0x00000000#32))
        (broadcastInDim S800000x1 ![0] bcast_S800000_S800000x1_0 (kDst a1))
        (broadcastInDim S800000 ![] bcast_S_S800000 (constant (F := F) S_ .f32 0x3F800000#32)))
      (broadcastInDim S50000 ![] bcast_S_S50000 (constant (F := F) S_ .f32 0x3F800000#32)))

def kDinv2d (a1 : (⟨S2x800000, .i32⟩ : BufTy).Contents (Elt F)) : (⟨S50000x1, .f32⟩ : BufTy).Contents (Elt F) :=
  shapeCast S50000x1 (kDinv a1) shapeCasts_S50000_S50000x1

def kOrder (a1 : (⟨S2x800000, .i32⟩ : BufTy).Contents (Elt F)) : (⟨S800000, .i32⟩ : BufTy).Contents (Elt F) :=
  (Host.sort2 S800000 0 comparator_i32_i32_d0 (kDst a1) (iotaInDim S800000 32 0)).2

def kWrapE (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 800000#32))) v

def kSrcS (a1 : (⟨S2x800000, .i32⟩ : BufTy).Contents (Elt F)) : (⟨S800000, .i32⟩ : BufTy).Contents (Elt F) :=
  Host.gather gather_S800000_S800000x1_S800000_n_0_n_n_0_1_1 (kSrc a1)
    (broadcastInDim S800000x1 ![0] bcast_S800000_S800000x1_0 (kWrapE (kOrder a1)))

def kDstS (a1 : (⟨S2x800000, .i32⟩ : BufTy).Contents (Elt F)) : (⟨S800000, .i32⟩ : BufTy).Contents (Elt F) :=
  Host.gather gather_S800000_S800000x1_S800000_n_0_n_n_0_1_1 (kDst a1)
    (broadcastInDim S800000x1 ![0] bcast_S800000_S800000x1_0 (kWrapE (kOrder a1)))

def kWrapN (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

def kAgg (hs : (⟨S50000x96, .bf16⟩ : BufTy).Contents (Elt F)) (a1 : (⟨S2x800000, .i32⟩ : BufTy).Contents (Elt F)) :
    (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 (kDstS a1))
    (extf .f32
      (Host.gather gather_S50000x96_S800000x1_S800000x96_1_0_n_n_0_1_196 hs
        (broadcastInDim S800000x1 ![0] bcast_S800000_S800000x1_0 (kWrapN (kSrcS a1))))
      bitsLt_bf16_f32)

def kBias2d (b : (⟨S96, .f32⟩ : BufTy).Contents (Elt F)) : (⟨S1x96, .f32⟩ : BufTy).Contents (Elt F) :=
  shapeCast S1x96 b shapeCasts_S96_S1x96

def kBfc2d (b : (⟨S10, .f32⟩ : BufTy).Contents (Elt F)) : (⟨S1x10, .f32⟩ : BufTy).Contents (Elt F) :=
  shapeCast S1x10 b shapeCasts_S10_S1x10

end Cert.KernelIdeal.Val

end
-- ==== Proof.Val.HostRead.lean ====
import proofs.«419602_j28836410425874_3_alg».proof.Proof.KI.Tower
import proofs.«419602_j28836410425874_3_alg».proof.Proof.Val.HostTerms

noncomputable section

namespace Cert.KernelIdeal.Val

open Idealize.ShloMosaic Idealize.ShloMosaic.TcCoe Idealize.ShloMosaic.Tactic
open Cert.KernelIdeal Cert.KernelIdeal.Gen Cert.KernelIdeal.Fr
open Idealize.ShloMosaic.StableHlo (after_of_writes_sub devRef_ne_of_ne)

variable {F : FTy → Type} [FloatOps F]

section Stretch

variable (W : Valuation τ sig (Elt F)) (a : (⟨S2x800000, .i32⟩ : BufTy).Contents (Elt F))

theorem ops0_v1 : StableHlo.after hostOps0 W main_v1 = kSrc (W main_arg1) := by
  after_results; rfl

theorem ops0_v3 : StableHlo.after hostOps0 W main_v3 = kDst (W main_arg1) := by
  after_results; rfl

theorem ops0_v4 : StableHlo.after hostOps0 W main_v4 = kBatch2d (W main_arg2) := by
  after_results; rfl

theorem ops0_v12 : StableHlo.after hostOps0 W main_v12 = kDinv2d (W main_arg1) := by
  after_results; rfl

theorem ops01_v13 (h3 : W main_v3 = kDst a) : StableHlo.after hostOps0_1 W main_v13 = kOrder a := by
  unfold kOrder; rw [← h3]; after_results; rfl

-- Both endpoint columns are read through the one sorting permutation.
theorem ops02 (h1 : W main_v1 = kSrc a) (h3 : W main_v3 = kDst a) (h13 : W main_v13 = kOrder a) :
    StableHlo.after hostOps0_2 W main_v20 = kSrcS a ∧ StableHlo.after hostOps0_2 W main_v27 = kDstS a := by
  unfold kSrcS kDstS; rw [← h1, ← h3, ← h13]
  exact ⟨by after_results; rfl, by after_results_simp; rfl⟩

-- The stretch after a layer's first region sums the rows of hs over the sorted edges.
theorem ops1_v39 {hs} (h27 : W main_v27 = kDstS a) (h20 : W main_v20 = kSrcS a)
    (h28 : W main_v28_1 = hs) : StableHlo.after hostOps1 W main_v39 = kAgg hs a := by
  unfold kAgg; rw [← h27, ← h20, ← h28]; after_results_simp; rfl

theorem ops1_v40 : StableHlo.after hostOps1 W main_v40 = kBias2d (W main_arg4) := by
  after_results; rfl

theorem ops3_v53 {hs} (h27 : W main_v27 = kDstS a) (h20 : W main_v20 = kSrcS a)
    (h42 : W main_v42_1 = hs) : StableHlo.after hostOps3 W main_v53 = kAgg hs a := by
  unfold kAgg; rw [← h27, ← h20, ← h42]; after_results_simp; rfl

theorem ops3_v54 : StableHlo.after hostOps3 W main_v54 = kBias2d (W main_arg6) := by
  after_results; rfl

theorem ops4_v56 : StableHlo.after hostOps4 W main_v56 = kBfc2d (W main_arg8) := by
  after_results; rfl

end Stretch

variable (m : (ℓ : Loc nD τ sig) → Buf (Elt F) ℓ) (c : Dev nD)

abbrev A0 : (⟨S50000x96, .f32⟩ : BufTy).Contents (Elt F) := m ((c : Thread nD τ).loc main_arg0)
abbrev A1 : (⟨S2x800000, .i32⟩ : BufTy).Contents (Elt F) := m ((c : Thread nD τ).loc main_arg1)
abbrev A2 : (⟨S50000, .i32⟩ : BufTy).Contents (Elt F) := m ((c : Thread nD τ).loc main_arg2)
abbrev A3 : (⟨S96x96, .f32⟩ : BufTy).Contents (Elt F) := m ((c : Thread nD τ).loc main_arg3)
abbrev A4 : (⟨S96, .f32⟩ : BufTy).Contents (Elt F) := m ((c : Thread nD τ).loc main_arg4)
abbrev A5 : (⟨S96x96, .f32⟩ : BufTy).Contents (Elt F) := m ((c : Thread nD τ).loc main_arg5)
abbrev A6 : (⟨S96, .f32⟩ : BufTy).Contents (Elt F) := m ((c : Thread nD τ).loc main_arg6)
abbrev A7 : (⟨S96x10, .f32⟩ : BufTy).Contents (Elt F) := m ((c : Thread nD τ).loc main_arg7)
abbrev A8 : (⟨S10, .f32⟩ : BufTy).Contents (Elt F) := m ((c : Thread nD τ).loc main_arg8)

theorem X3_of1 (r : Ref sig .tc) (h : r ∉ hostOps0_1_W ∧ r ∉ hostOps0_2_W) : X3 m c r = Gen.V1 m c r :=
  (Gen.V3_of m c r h.2).trans (Gen.V2_of m c r h.1)

theorem X3_of (r : Ref sig .tc) (h : r ∉ hostOps0_W ∧ r ∉ hostOps0_1_W ∧ r ∉ hostOps0_2_W) :
    X3 m c r = Gen.V0 m c r :=
  (X3_of1 m c r h.2).trans (Gen.V1_of m c r h.1)

abbrev Late (r : Ref sig .tc) : Prop :=
  (r ≠ main_v28_0 ∧ r ≠ main_v28_1 ∧ r ∉ hostOps1_W) ∧ (r ≠ main_v41 ∧ r ≠ main_v42_0 ∧ r ≠ main_v42_1 ∧ r ∉ hostOps3_W) ∧
    r ≠ main_v55 ∧ r ∉ hostOps4_W

structure Kept (r : Ref sig .tc) : Prop where
  x4 : X4 m c r = X3 m c r
  x5 : X5 m c r = X3 m c r
  x6 : X6 m c r = X3 m c r
  x7 : X7 m c r = X3 m c r
  x8 : X8 m c r = X3 m c r
  x9 : X9 m c r = X3 m c r
  x10 : X10 m c r = X3 m c r

-- A reference that no item after the entry of the first region writes holds its entry value at every later point.
theorem late (r : Ref sig .tc) (h : Late r) : Kept m c r := by
  obtain ⟨⟨ha, hb, h5⟩, ⟨h6, hc, hd, h8⟩, h9, h10⟩ := h
  have e4 : X4 m c r = X3 m c r :=
    (Function.update_of_ne (devRef_ne_of_ne hb) _ _).trans (Function.update_of_ne (devRef_ne_of_ne ha) _ _)
  have e5 : X5 m c r = X3 m c r := (after_of_writes_sub hostOps1 _ hostOps1_writes h5).trans e4
  have e6 : X6 m c r = X3 m c r := (Function.update_of_ne (devRef_ne_of_ne h6) _ _).trans e5
  have e7 : X7 m c r = X3 m c r :=
    (Function.update_of_ne (devRef_ne_of_ne hd) _ _).trans ((Function.update_of_ne (devRef_ne_of_ne hc) _ _).trans e6)
  have e8 : X8 m c r = X3 m c r := (after_of_writes_sub hostOps3 _ hostOps3_writes h8).trans e7
  have e9 : X9 m c r = X3 m c r := (Function.update_of_ne (devRef_ne_of_ne h9) _ _).trans e8
  exact ⟨e4, e5, e6, e7, e8, e9, (after_of_writes_sub hostOps4 _ hostOps4_writes h10).trans e9⟩

theorem X3_sorted : X3 m c main_v20 = kSrcS (A1 m c) ∧ X3 m c main_v27 = kDstS (A1 m c) :=
  ops02 (Gen.V2 m c) (A1 m c) ((Gen.V2_of m c _ (by decide)).trans (ops0_v1 (Gen.V0 m c)))
    ((Gen.V2_of m c _ (by decide)).trans (ops0_v3 (Gen.V0 m c))) (ops01_v13 (Gen.V1 m c) (A1 m c) (ops0_v3 (Gen.V0 m c)))

theorem X3_arg0 : X3 m c main_arg0 = A0 m c := X3_of m c _ (by decide)
theorem X3_arg3 : X3 m c main_arg3 = A3 m c := X3_of m c _ (by decide)
theorem X3_v12 : X3 m c main_v12 = kDinv2d (A1 m c) :=
  (X3_of1 m c _ (by decide)).trans (ops0_v12 (Gen.V0 m c))

theorem X5_v39 : X5 m c main_v39 = kAgg (b4 m c) (A1 m c) :=
  ops1_v39 (X4 m c) (A1 m c) ((late m c _ (by decide)).x4.trans (X3_sorted m c).2)
    ((late m c _ (by decide)).x4.trans (X3_sorted m c).1) (Function.update_self _ _ _)
theorem X5_v28_0 : X5 m c main_v28_0 = a4 m c :=
  (after_of_writes_sub hostOps1 _ hostOps1_writes (by decide)).trans
    ((Function.update_of_ne (devRef_ne_of_ne (by decide)) _ _).trans (Function.update_self _ _ _))
theorem X5_v12 : X5 m c main_v12 = kDinv2d (A1 m c) :=
  (late m c _ (by decide)).x5.trans (X3_v12 m c)
theorem X5_v40 : X5 m c main_v40 = kBias2d (A4 m c) :=
  (ops1_v40 (X4 m c)).trans (congrArg (kBias2d (F := F)) ((late m c _ (by decide)).x4.trans (X3_of m c _ (by decide))))

theorem X6_v41 : X6 m c main_v41 = a6 m c :=
  Function.update_self _ _ _
theorem X6_arg5 : X6 m c main_arg5 = A5 m c :=
  (late m c _ (by decide)).x6.trans (X3_of m c _ (by decide))
theorem X6_v12 : X6 m c main_v12 = kDinv2d (A1 m c) :=
  (late m c _ (by decide)).x6.trans (X3_v12 m c)

theorem X8_v53 : X8 m c main_v53 = kAgg (b7 m c) (A1 m c) :=
  ops3_v53 (X7 m c) (A1 m c) ((late m c _ (by decide)).x7.trans (X3_sorted m c).2)
    ((late m c _ (by decide)).x7.trans (X3_sorted m c).1) (Function.update_self _ _ _)
theorem X8_v42_0 : X8 m c main_v42_0 = a7 m c :=
  (after_of_writes_sub hostOps3 _ hostOps3_writes (by decide)).trans
    ((Function.update_of_ne (devRef_ne_of_ne (by decide)) _ _).trans (Function.update_self _ _ _))
theorem X8_v12 : X8 m c main_v12 = kDinv2d (A1 m c) :=
  (late m c _ (by decide)).x8.trans (X3_v12 m c)
theorem X8_v54 : X8 m c main_v54 = kBias2d (A6 m c) :=
  (ops3_v54 (X7 m c)).trans
    (congrArg (kBias2d (F := F)) ((late m c _ (by decide)).x7.trans (X3_of m c _ (by decide))))

theorem X10_v55 : X10 m c main_v55 = a9 m c :=
  (after_of_writes_sub hostOps4 _ hostOps4_writes (by decide)).trans (Function.update_self _ _ _)
theorem X10_v4 : X10 m c main_v4 = kBatch2d (A2 m c) :=
  (late m c _ (by decide)).x10.trans ((X3_of1 m c _ (by decide)).trans (ops0_v4 (Gen.V0 m c)))
theorem X10_arg7 : X10 m c main_arg7 = A7 m c :=
  (late m c _ (by decide)).x10.trans (X3_of m c _ (by decide))
theorem X10_v56 : X10 m c main_v56 = kBfc2d (A8 m c) :=
  (ops4_v56 (X9 m c)).trans
    (congrArg (kBfc2d (F := F)) ((late m c _ (by decide)).x9.trans (X3_of m c _ (by decide))))

end Cert.KernelIdeal.Val

end
-- ==== Proof.Val.RefSide.lean ====
import proofs.«419602_j28836410425874_3_alg».proof.Proof.Gen.ReferenceIdeal.Run
import proofs.«419602_j28836410425874_3_alg».proof.Proof.Gen.ReferenceIdeal.Read
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember

noncomputable section
namespace Cert.Bridge.Ref
open Idealize.ShloMosaic Idealize.ShloMosaic.TcCoe Idealize.ShloMosaic.ValueIdx Cert.ReferenceIdeal
open Cert.ReferenceIdeal.Gen Idealize.SL.Sem

section Stages
variable {F : FTy → Type} [FloatOps F]

def srcOf (a1 : (⟨S2x800000, .i32⟩ : BufTy).Contents (Elt F)) : (⟨S800000, .i32⟩ : BufTy).Contents (Elt F) :=
  shapeCast _ (extractStridedSlice S1x800000 ![0, 0] a1 slices_S2x800000_S1x800000_0_0) shapeCasts_S1x800000_S800000

def dstOf (a1 : (⟨S2x800000, .i32⟩ : BufTy).Contents (Elt F)) : (⟨S800000, .i32⟩ : BufTy).Contents (Elt F) :=
  shapeCast _ (extractStridedSlice S1x800000 ![1, 0] a1 slices_S2x800000_S1x800000_1_0) shapeCasts_S1x800000_S800000

def wrapN (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

def degOf (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

def dinvOf (dst : (⟨S800000, .i32⟩ : BufTy).Contents (Elt F)) : (⟨S50000, .f32⟩ : BufTy).Contents (Elt F) :=
  Host.rsqrt (addf (degOf (F := F) dst) (broadcastInDim S50000 ![] bcast_S_S50000 (constant S_ .f32 0x3F800000#32)))

def layerH (X : (⟨S50000x96, .f32⟩ : BufTy).Contents (Elt F)) (W : (⟨S96x96, .f32⟩ : BufTy).Contents (Elt F)) :
    (⟨S50000x96, .f32⟩ : BufTy).Contents (Elt F) :=
  Host.dotGeneral dot_S50000x96_S96x96_S50000x96_1_0_0_1_n_n none X W

def gathH (X : (⟨S50000x96, .f32⟩ : BufTy).Contents (Elt F)) (W : (⟨S96x96, .f32⟩ : BufTy).Contents (Elt F))
    (src : (⟨S800000, .i32⟩ : BufTy).Contents (Elt F)) : (⟨S800000x96, .f32⟩ : BufTy).Contents (Elt F) :=
  Host.gather gather_S50000x96_S800000x1_S800000x96_1_0_n_n_0_1_196 (layerH (F := F) X W)
    (broadcastInDim S800000x1 ![0] bcast_S800000_S800000x1_0 (wrapN (F := F) src))

def gathDinv (dst v : (⟨S800000, .i32⟩ : BufTy).Contents (Elt F)) : (⟨S800000, .f32⟩ : BufTy).Contents (Elt F) :=
  Host.gather gather_S50000_S800000x1_S800000_n_0_n_n_0_1_1 (dinvOf (F := F) dst)
    (broadcastInDim S800000x1 ![0] bcast_S800000_S800000x1_0 (wrapN (F := F) v))

def layerUpd (X : (⟨S50000x96, .f32⟩ : BufTy).Contents (Elt F)) (W : (⟨S96x96, .f32⟩ : BufTy).Contents (Elt F))
    (src dst : (⟨S800000, .i32⟩ : BufTy).Contents (Elt F)) : (⟨S800000x96, .f32⟩ : BufTy).Contents (Elt F) :=
  mulf (gathH (F := F) X W src)
    (broadcastInDim S800000x96 ![0, 1] bcast_S800000x1_S800000x96_0_1
      (broadcastInDim S800000x1 ![0] bcast_S800000_S800000x1_0
        (mulf (gathDinv (F := F) dst src) (gathDinv (F := F) dst dst))))

def layerS (X : (⟨S50000x96, .f32⟩ : BufTy).Contents (Elt F)) (W : (⟨S96x96, .f32⟩ : BufTy).Contents (Elt F))
    (src dst : (⟨S800000, .i32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (layerUpd (F := F) X W src dst)

def layer (X : (⟨S50000x96, .f32⟩ : BufTy).Contents (Elt F)) (W : (⟨S96x96, .f32⟩ : BufTy).Contents (Elt F))
    (b : (⟨S96, .f32⟩ : BufTy).Contents (Elt F)) (src dst : (⟨S800000, .i32⟩ : BufTy).Contents (Elt F)) :
    (⟨S50000x96, .f32⟩ : BufTy).Contents (Elt F) :=
  maximumf
    (addf
      (addf (layerS (F := F) X W src dst)
        (mulf (layerH (F := F) X W)
          (broadcastInDim S50000x96 ![0, 1] bcast_S50000x1_S50000x96_0_1
            (broadcastInDim S50000x1 ![0] bcast_S50000_S50000x1_0 (mulf (dinvOf (F := F) dst) (dinvOf (F := F) dst))))))
      (broadcastInDim S50000x96 ![0, 1] bcast_S1x96_S50000x96_0_1 (broadcastInDim S1x96 ![1] bcast_S96_S1x96_1 b)))
    (broadcastInDim S50000x96 ![] bcast_S_S50000x96 (constant S_ .f32 0x00000000#32))

def poolSum (X : (⟨S50000x96, .f32⟩ : BufTy).Contents (Elt F)) (batch : (⟨S50000, .i32⟩ : BufTy).Contents (Elt F)) :
    (⟨S64x96, .f32⟩ : BufTy).Contents (Elt F) :=
  Host.scatterAdd scatter_S64x96_S50000x1_S50000x96_1_0_0_1
    (broadcastInDim S64x96 ![] bcast_S_S64x96 (constant S_ .f32 0x00000000#32))
    (broadcastInDim S50000x1 ![0] bcast_S50000_S50000x1_0 batch) X

def poolCnt (batch : (⟨S50000, .i32⟩ : BufTy).Contents (Elt F)) : (⟨S64, .f32⟩ : BufTy).Contents (Elt F) :=
  Host.scatterAdd scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

def pool (X : (⟨S50000x96, .f32⟩ : BufTy).Contents (Elt F)) (batch : (⟨S50000, .i32⟩ : BufTy).Contents (Elt F))
    (Wfc : (⟨S96x10, .f32⟩ : BufTy).Contents (Elt F)) (bfc : (⟨S10, .f32⟩ : BufTy).Contents (Elt F)) :
    (⟨S64x10, .f32⟩ : BufTy).Contents (Elt F) :=
  addf
    (Host.dotGeneral dot_S64x96_S96x10_S64x10_1_0_0_1_n_n none
      (Host.divf (poolSum (F := F) X batch)
        (broadcastInDim S64x96 ![0, 1] bcast_S64x1_S64x96_0_1
          (broadcastInDim S64x1 ![0] bcast_S64_S64x1_0
            (maximumf (poolCnt (F := F) batch) (broadcastInDim S64 ![] bcast_S_S64 (constant S_ .f32 0x3F800000#32))))))
      Wfc)
    (broadcastInDim S64x10 ![0, 1] bcast_S1x10_S64x10_0_1 (broadcastInDim S1x10 ![1] bcast_S10_S1x10_1 bfc))

set_option maxRecDepth 8192 in

theorem res_eq (m : (ℓ : Loc nD τ sig) → Buf (Elt F) ℓ) (c : Dev nD) :
    Value.res_main_v109 (F := F) m c =
      pool (F := F)
        (layer (F := F)
          (layer (F := F) (m ((c.tc : Thread nD τ).loc main_arg0)) (m ((c.tc : Thread nD τ).loc main_arg3))
            (m ((c.tc : Thread nD τ).loc main_arg4)) (srcOf (F := F) (m ((c.tc : Thread nD τ).loc main_arg1)))
            (dstOf (F := F) (m ((c.tc : Thread nD τ).loc main_arg1))))
          (m ((c.tc : Thread nD τ).loc main_arg5)) (m ((c.tc : Thread nD τ).loc main_arg6))
          (srcOf (F := F) (m ((c.tc : Thread nD τ).loc main_arg1))) (dstOf (F := F) (m ((c.tc : Thread nD τ).loc main_arg1))))
        (m ((c.tc : Thread nD τ).loc main_arg2)) (m ((c.tc : Thread nD τ).loc main_arg7))
        (m ((c.tc : Thread nD τ).loc main_arg8)) := by
  unfold Value.res_main_v109 pool poolSum poolCnt layer layerS layerUpd gathH gathDinv layerH dinvOf degOf wrapN srcOf dstOf
  rfl

end Stages

section Layout
variable {α : Type}

theorem splat_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 fun a => a.elim0

theorem keep_val {n : Nat} (i : Fin n) : i.val = if n = 1 then 0 else i.val := by
  have := i.isLt
  split <;> omega

theorem asCol_apply {n : Nat} (h : (⟨1, ![n]⟩ : Shape).BroadcastsInDim ⟨2, ![n, 1]⟩ ![0])
    (y : (⟨1, ![n]⟩ : Shape).Idx → α) (i : Fin n) (z : Fin 1) :
    broadcastInDim ⟨2, ![n, 1]⟩ ![0] h y (ix2 i z) = y (ix1 i) :=
  broadcastInDim_apply _ h y _ _ fun a => match a with
    | ⟨0, _⟩ => keep_val i

theorem spreadCol_apply {n m : Nat} (h : (⟨2, ![n, 1]⟩ : Shape).BroadcastsInDim ⟨2, ![n, m]⟩ ![0, 1])
    (y : (⟨2, ![n, 1]⟩ : Shape).Idx → α) (i : Fin n) (k : Fin m) :
    broadcastInDim ⟨2, ![n, m]⟩ ![0, 1] h y (ix2 i k) = y (ix2 i 0) :=
  broadcastInDim_apply _ h y _ _ fun a => match a with
    | ⟨0, _⟩ => keep_val i
    | ⟨1, _⟩ => rfl

theorem asRow_apply {m : Nat} (h : (⟨1, ![m]⟩ : Shape).BroadcastsInDim ⟨2, ![1, m]⟩ ![1])
    (y : (⟨1, ![m]⟩ : Shape).Idx → α) (z : Fin 1) (k : Fin m) :
    broadcastInDim ⟨2, ![1, m]⟩ ![1] h y (ix2 z k) = y (ix1 k) :=
  broadcastInDim_apply _ h y _ _ fun a => match a with
    | ⟨0, _⟩ => keep_val k

theorem spreadRow_apply {n m : Nat} (h : (⟨2, ![1, m]⟩ : Shape).BroadcastsInDim ⟨2, ![n, m]⟩ ![0, 1])
    (y : (⟨2, ![1, m]⟩ : Shape).Idx → α) (i : Fin n) (k : Fin m) :
    broadcastInDim ⟨2, ![n, m]⟩ ![0, 1] h y (ix2 i k) = y (ix2 0 k) :=
  broadcastInDim_apply _ h y _ _ fun a => match a with
    | ⟨0, _⟩ => rfl
    | ⟨1, _⟩ => keep_val k

end Layout

section AtIdeal

theorem matmulH_apply (X : (⟨S50000x96, .f32⟩ : BufTy).Contents (Elt Ideal)) (W : (⟨S96x96, .f32⟩ : BufTy).Contents (Elt Ideal))
    (i : Fin 50000) (k : Fin 96) :
    Host.dotGeneral (F := Ideal) (φ₁ := .f32) (φ₂ := .f32) dot_S50000x96_S96x96_S50000x96_1_0_0_1_n_n none X W (ix2 i k)
      = ∑ j : Fin 96, X (ix2 i j) * W (ix2 j k) :=
  StackMember.dotGeneral_plain_apply none X W i k

theorem layerS_upd_apply (X : (⟨S50000x96, .f32⟩ : BufTy).Contents (Elt Ideal)) (W : (⟨S96x96, .f32⟩ : BufTy).Contents (Elt Ideal))
    (src dst : (⟨S800000, .i32⟩ : BufTy).Contents (Elt Ideal)) (e : Fin 800000) (k : Fin 96) :
    layerUpd (F := Ideal) X W src dst (ix2 e k)
      = gathH (F := Ideal) X W src (ix2 e k) * (gathDinv (F := Ideal) dst src (ix1 e) * gathDinv (F := Ideal) dst dst (ix1 e)) := by
  unfold layerUpd
  rw [mulf_apply, spreadCol_apply, asCol_apply, mulf_apply]

theorem layer_apply (X : (⟨S50000x96, .f32⟩ : BufTy).Contents (Elt Ideal)) (W : (⟨S96x96, .f32⟩ : BufTy).Contents (Elt Ideal))
    (b : (⟨S96, .f32⟩ : BufTy).Contents (Elt Ideal)) (src dst : (⟨S800000, .i32⟩ : BufTy).Contents (Elt Ideal))
    (i : Fin 50000) (k : Fin 96) :
    layer (F := Ideal) X W b src dst (ix2 i k)
      = max ((layerS (F := Ideal) X W src dst (ix2 i k)
              + layerH (F := Ideal) X W (ix2 i k) * (dinvOf (F := Ideal) dst (ix1 i) * dinvOf (F := Ideal) dst (ix1 i)))
            + b (ix1 k))
          (Ideal.ofBits .f32 0x00000000#32) := by
  unfold layer
  rw [maximumf_apply, addf_apply, addf_apply, mulf_apply, spreadCol_apply, asCol_apply, mulf_apply, spreadRow_apply,
    asRow_apply, splat_apply, constant_apply]

theorem pool_apply (X : (⟨S50000x96, .f32⟩ : BufTy).Contents (Elt Ideal)) (batch : (⟨S50000, .i32⟩ : BufTy).Contents (Elt Ideal))
    (Wfc : (⟨S96x10, .f32⟩ : BufTy).Contents (Elt Ideal)) (bfc : (⟨S10, .f32⟩ : BufTy).Contents (Elt Ideal))
    (g : Fin 64) (q : Fin 10) :
    pool (F := Ideal) X batch Wfc bfc (ix2 g q)
      = (∑ j : Fin 96,
            Ideal.div (poolSum (F := Ideal) X batch (ix2 g j))
              (max (poolCnt (F := Ideal) batch (ix1 g)) (Ideal.ofBits .f32 0x3F800000#32)) * Wfc (ix2 j q))
          + bfc (ix1 q) := by
  unfold pool
  rw [addf_apply, spreadRow_apply, asRow_apply]
  refine congrArg (· + bfc (ix1 q))
    ((StackMember.dotGeneral_plain_apply none _ Wfc g q).trans (Finset.sum_congr rfl fun j _ => ?_))
  rw [hostDivf_apply, spreadCol_apply, asCol_apply, maximumf_apply, splat_apply, constant_apply]

end AtIdeal

end Cert.Bridge.Ref
-- ==== Proof.Val.ScatterRead.lean ====
import Idealize.ShloMosaic.PureOps.Ideal.Laws
import Idealize.ShloMosaic.Lib.ValueIdxRank1

noncomputable section

namespace Cert.Bridge

open Idealize.ShloMosaic Idealize.ShloMosaic.ValueIdx
open scoped BigOperators

theorem resultIdx?_eq_some_iff {s si u : Shape} {w : ℕ} (d : ScatterDims s si u) (j : u.Idx) (idx : IVec si w)
    (t : s.Idx) : d.resultIdx? j idx = some t ↔ ∀ a, d.start j idx a + d.window j a = ((t a).val : ℤ) := by
  unfold ScatterDims.resultIdx?
  constructor
  · intro h a
    split at h
    · rename_i hall
      have e := congrArg Fin.val (congrFun (Option.some.inj h) a)
      have := hall a
      change (d.start j idx a + (d.window j a : ℤ)).toNat = (t a).val at e
      omega
    · cases h
  · intro h
    have hall : ∀ a, 0 ≤ d.start j idx a + d.window j a ∧ d.start j idx a + d.window j a < s.size a := fun a => by
      have := (t a).isLt
      rw [h a]; omega
    rw [dif_pos hall]
    refine congrArg some (funext fun a => Fin.ext ?_)
    show (d.start j idx a + (d.window j a : ℤ)).toNat = (t a).val
    rw [h a]; omega

theorem resultIdx?_rows {N E D w : ℕ} (d : ScatterDims ⟨2, ![N, D]⟩ ⟨2, ![E, 1]⟩ ⟨2, ![E, D]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (k' : Fin D) (i : Fin N) (k : Fin D) :
    d.resultIdx? (ix2 e k') idx = some (ix2 i k) ↔ (idx (ix2 e 0)).toInt = (i.val : ℤ) ∧ k' = k := by
  rw [resultIdx?_eq_some_iff, Fin.forall_fin_two, Fin.ext_iff]
  obtain ⟨uw, iw, sd, iv, wf⟩ := d
  dsimp only at huw hiw hsd hiv
  subst huw hiw hsd hiv
  suffices h : ∀ X, X = ix2 e 0 → ((idx X).toInt + ((0 : ℕ) : ℤ) = (i.val : ℤ) ∧ (0 : ℤ) + (k'.val : ℤ) = (k.val : ℤ)
      ↔ (idx (ix2 e 0)).toInt = (i.val : ℤ) ∧ k'.val = k.val) from
    h _ (funext fun b => by match b with | ⟨0, _⟩ => rfl | ⟨1, _⟩ => rfl)
  rintro X rfl
  omega

theorem scatterAdd_rows_apply {N E D w : ℕ} (d : ScatterDims ⟨2, ![N, D]⟩ ⟨2, ![E, 1]⟩ ⟨2, ![E, D]⟩)
    (huw : d.updateWindowDims = [1]) (hiw : d.insertedWindowDims = [0])
    (hsd : d.scatterDimsToOperandDims = [0]) (hiv : d.indexVectorDim = 1)
    (x : FVec Ideal ⟨2, ![N, D]⟩ .f32) (idx : IVec ⟨2, ![E, 1]⟩ w) (upd : FVec Ideal ⟨2, ![E, D]⟩ .f32)
    (i : Fin N) (k : Fin D) :
    Host.scatterAdd d x idx upd (ix2 i k)
      = x (ix2 i k) + ∑ e ∈ Finset.univ.filter (fun e : Fin E => (idx (ix2 e 0)).toInt = (i.val : ℤ)), upd (ix2 e k) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [resultIdx?_rows d huw hiw hsd hiv idx e _ i k, ite_and, Finset.sum_ite_irrel, Finset.sum_ite_eq',
    Finset.mem_univ, if_true, Finset.sum_const_zero]

theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

theorem resultIdx?_vec {N E w : ℕ} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (i : Fin N) :
    d.resultIdx? (ix1 e) idx = some (ix1 i) ↔ (idx (ix2 e 0)).toInt = (i.val : ℤ) := by
  rw [resultIdx?_eq_some_iff, Fin.forall_fin_one]
  obtain ⟨uw, iw, sd, iv, wf⟩ := d
  dsimp only at huw hiw hsd hiv
  subst huw hiw hsd hiv
  suffices h : ∀ X, X = ix2 e 0 → ((idx X).toInt + ((0 : ℕ) : ℤ) = (i.val : ℤ) ↔ (idx (ix2 e 0)).toInt = (i.val : ℤ)) from
    h _ (funext fun b => by match b with | ⟨0, _⟩ => rfl | ⟨1, _⟩ => rfl)
  rintro X rfl
  omega

theorem scatterAdd_vec_apply {N E w : ℕ} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : FVec Ideal ⟨1, ![N]⟩ .f32) (idx : IVec ⟨2, ![E, 1]⟩ w) (upd : FVec Ideal ⟨1, ![E]⟩ .f32) (i : Fin N) :
    Host.scatterAdd d x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [resultIdx?_vec d huw hiw hsd hiv idx e i]

theorem ofBits_one_f32 : Ideal.ofBits .f32 0x3F800000#32 = ((1 : ℝ) : EReal) := by
  simp [Ideal.ofBits, Ideal.ieee, -EReal.coe_mul]; norm_num

theorem ofBits_zero_f32' : Ideal.ofBits .f32 0x00000000#32 = ((0 : ℝ) : EReal) := by
  rw [Ideal.ofBits_zero_f32, EReal.coe_zero]

theorem rsqrt_count_nonneg_real {sh : Shape} {ι : Type*} (deg : FVec Ideal sh .f32) (j : sh.Idx) (s : Finset ι)
    (h : deg j = ((0 : ℝ) : EReal) + (∑ _e ∈ s, ((1 : ℝ) : EReal)) + ((1 : ℝ) : EReal)) :
    ∃ r : ℝ, 0 ≤ r ∧ Host.rsqrt (F := Ideal) deg j = (r : EReal) := by
  have hpos : (0 : ℝ) < (s.card : ℝ) + 1 := by positivity
  refine ⟨(Real.sqrt ((s.card : ℝ) + 1))⁻¹, inv_nonneg.mpr (Real.sqrt_nonneg _), ?_⟩
  show FloatOps.hostUnary (F := Ideal) .rsqrt (deg j) = _
  rw [Ideal.hostUnary_rsqrt_def, h, Finset.sum_const, ← EReal.coe_nsmul, nsmul_eq_mul, mul_one, ← EReal.coe_add,
    ← EReal.coe_add, zero_add, Ideal.rsqrt_coe, if_neg (not_lt.mpr hpos.le), if_neg hpos.ne']

end Cert.Bridge
-- ==== Proof.Val.SortSum.lean ====
import Idealize.ShloMosaic.PureOps.Ideal.Laws
import Idealize.ShloMosaic.Lib.ValueLayout
import Idealize.ShloMosaic.Lib.StableHlo.Predicate

noncomputable section

namespace Cert.Bridge

open Idealize.ShloMosaic Idealize.ShloMosaic.ValueIdx

theorem argsort_perm {n : ℕ} (_hn : n ≤ 2 ^ 31)
    (cmp : BitVec 32 × BitVec 32 → BitVec 32 × BitVec 32 → BitVec 1) (keys : IVec ⟨1, ![n]⟩ 32) :
    ∃ σ : Fin n → Fin n, Function.Bijective σ
      ∧ (∀ e : Fin n, (Host.sort2 ⟨1, ![n]⟩ 0 cmp keys (iotaInDim ⟨1, ![n]⟩ 32 0)).2 (ix1 e)
          = BitVec.ofNat 32 (σ e).val)
      ∧ (∀ e : Fin n, (Host.sort2 ⟨1, ![n]⟩ 0 cmp keys (iotaInDim ⟨1, ![n]⟩ 32 0)).1 (ix1 e)
          = keys (ix1 (σ e))) := by
  have hd : 0 < (⟨1, ![n]⟩ : Shape).rank := Nat.one_pos
  have ha : ∀ (j : (⟨1, ![n]⟩ : Shape).Idx) (k : Fin ((⟨1, ![n]⟩ : Shape).size ⟨0, hd⟩)), j.along ⟨0, hd⟩ k = ix1 k :=
    fun j k => funext fun d => by
    match d with
    | ⟨0, _⟩ => exact Function.update_self ..
  unfold Host.sort2
  simp only [dif_pos hd, ha]
  exact ⟨sortedFrom fun k k' => cmp (keys (ix1 k), iotaInDim ⟨1, ![n]⟩ 32 0 (ix1 k))
      (keys (ix1 k'), iotaInDim ⟨1, ![n]⟩ 32 0 (ix1 k')) == 1#1,
    ⟨sortedFrom_injective _, sortedFrom_surjective _⟩, fun _ => rfl, fun _ => rfl⟩

theorem ofNat_toInt_of_lt {n k : ℕ} (hn : n ≤ 2 ^ 31) (hk : k < n) :
    0 ≤ (BitVec.ofNat 32 k).toInt ∧ (BitVec.ofNat 32 k).toInt.toNat = k := by
  rw [StableHlo.Predicate.toInt_ofNat_small k (hk.trans_le hn)]
  exact ⟨Int.natCast_nonneg k, Int.toNat_natCast k⟩

theorem sum_filter_comp_bij {M : Type} [AddCommMonoid M] {n : ℕ} (σ : Fin n → Fin n) (hσ : Function.Bijective σ)
    (p : Fin n → Prop) [DecidablePred p] [DecidablePred fun e => p (σ e)] (f : Fin n → M) :
    ∑ e ∈ Finset.univ.filter (fun e => p (σ e)), f (σ e) = ∑ e ∈ Finset.univ.filter p, f e := by
  rw [Finset.sum_filter, Finset.sum_filter, ← hσ.sum_comp fun e => if p e then f e else 0]
  refine Finset.sum_congr rfl fun e _ => ?_
  by_cases h : p (σ e)
  · rw [if_pos h, if_pos h]
  · rw [if_neg h, if_neg h]

theorem sum_mul_coe_nonneg {ι : Type} (s : Finset ι) (a : ι → EReal) (r : ℝ) (hr : 0 ≤ r) :
    (∑ e ∈ s, a e) * (r : EReal) = ∑ e ∈ s, a e * (r : EReal) := by
  classical
  induction s using Finset.induction_on with
  | empty => rw [Finset.sum_empty, Finset.sum_empty, zero_mul]
  | insert i s hi ih =>
    rw [Finset.sum_insert hi, Finset.sum_insert hi,
      EReal.right_distrib_of_nonneg_of_ne_top (EReal.coe_nonneg.mpr hr) (EReal.coe_ne_top r), ih]

theorem zero_add_ereal (x : EReal) : ((0 : ℝ) : EReal) + x = x := by rw [EReal.coe_zero, zero_add]
theorem one_mul_ereal (x : EReal) : ((1 : ℝ) : EReal) * x = x := by rw [EReal.coe_one, one_mul]
theorem mul_one_ereal (x : EReal) : x * ((1 : ℝ) : EReal) = x := by rw [EReal.coe_one, mul_one]
theorem zero_mul_ereal (x : EReal) : ((0 : ℝ) : EReal) * x = 0 := by rw [EReal.coe_zero, zero_mul]

end Cert.Bridge
-- ==== Proof.Val.GatherRead.lean ====
import Idealize.ShloMosaic.PureOps.Ideal.Laws
import Idealize.ShloMosaic.Lib.ValueLayout
import Idealize.ShloMosaic.Lib.StableHlo.Predicate

noncomputable section

namespace Cert.Bridge

open Idealize.ShloMosaic Idealize.ShloMosaic.ValueIdx

theorem ofFin_eq_ix1 {n : ℕ} (p : Fin n) : Shape.Idx.ofFin p = ix1 p := by
  funext a
  obtain rfl : a = 0 := Subsingleton.elim _ _
  rfl

theorem ixP_eq_ix2 {n : ℕ} (p : Fin n) : StableHlo.Predicate.ixP p = ix2 p 0 := by
  funext a
  match a with
  | ⟨0, _⟩ => rfl
  | ⟨1, _⟩ => rfl

theorem bcast_col_apply {α : Type} {E : ℕ}
    (h : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ (![0] : Fin 1 → Fin 2) h v (ix2 e 0) = v (ix1 e) := by
  rw [← ixP_eq_ix2, StableHlo.Predicate.bcast_col1, ofFin_eq_ix1]

theorem gather_rows_apply {α : Type} {N E D w : ℕ} (hN : 0 < N)
    (d : GatherDims ⟨2, ![N, D]⟩ ⟨2, ![E, 1]⟩ ⟨2, ![E, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![E, 1]⟩ w) (e : Fin E) (k : Fin D) :
    Host.gather d x idx (ix2 e k) = x (ix2 ⟨min (idx (ix2 e 0)).toInt.toNat (N - 1), by omega⟩ k) := by
  obtain ⟨od, cs, ob, sb, sim, ivd, ss, wf⟩ := d
  dsimp only at hoff hcoll hob hsb hsim hivd hss
  subst hoff hcoll hob hsb hsim hivd hss
  unfold Host.gather
  congr 1
  funext a
  refine Fin.ext ?_
  match a with
  | ⟨0, _⟩ =>
    show min (idx _).toInt.toNat (N - 1) = min (idx (ix2 e 0)).toInt.toNat (N - 1)
    congr 4
    funext b
    match b with
    | ⟨0, _⟩ => rfl
    | ⟨1, _⟩ => rfl
  | ⟨1, _⟩ => show 0 + 0 + k.val = k.val; omega

theorem gather_vec_apply {α : Type} {N E w : ℕ} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  simpa only [ofFin_eq_ix1, ixP_eq_ix2] using StableHlo.Predicate.gather_take d hcoll hob hsim hivd x idx e hN

def wrapIdx (N : ℕ) (v : BitVec 32) : BitVec 32 := if v.toInt < 0 then v + BitVec.ofNat 32 N else v

theorem wrap_select_apply {E : ℕ} (N : ℕ)
    (h0 : (⟨0, ![]⟩ : Shape).BroadcastsInDim ⟨1, ![E]⟩ (![] : Fin 0 → Fin 1))
    (hN : (⟨0, ![]⟩ : Shape).BroadcastsInDim ⟨1, ![E]⟩ (![] : Fin 0 → Fin 1))
    (v : IVec ⟨1, ![E]⟩ 32) (e : Fin E) :
    (select (cmpi .slt v (broadcastInDim ⟨1, ![E]⟩ (![] : Fin 0 → Fin 1) h0 (constantI ⟨0, ![]⟩ 32 0#32)))
        (addi v (broadcastInDim ⟨1, ![E]⟩ (![] : Fin 0 → Fin 1) hN (constantI ⟨0, ![]⟩ 32 (BitVec.ofNat 32 N)))) v) (ix1 e)
      = wrapIdx N (v (ix1 e)) := by
  show Scalar.select (BitVec.ofBool ((v (ix1 e)).slt 0#32)) (v (ix1 e) + BitVec.ofNat 32 N) (v (ix1 e)) = _
  unfold wrapIdx
  rw [BitVec.slt, BitVec.toInt_zero]
  by_cases hneg : (v (ix1 e)).toInt < 0
  · rw [decide_eq_true hneg, if_pos hneg]; rfl
  · rw [decide_eq_false hneg, if_neg hneg]; rfl

def rowOf (N : ℕ) (v : BitVec 32) : ℕ := min (wrapIdx N v).toInt.toNat (N - 1)

theorem rowOf_lt {N : ℕ} (hN : 0 < N) (v : BitVec 32) : rowOf N v < N := by
  unfold rowOf; omega

theorem rowOf_of_inRange (N : ℕ) (v : BitVec 32) (h0 : 0 ≤ v.toInt) (h1 : v.toInt < N) :
    rowOf N v = v.toInt.toNat := by
  unfold rowOf wrapIdx
  rw [if_neg (by omega)]
  omega

theorem take_rows_apply {α : Type} {N E D : ℕ} (hN : 0 < N)
    (d : GatherDims ⟨2, ![N, D]⟩ ⟨2, ![E, 1]⟩ ⟨2, ![E, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (hc : (⟨1, ![E]⟩ : Shape).BroadcastsInDim ⟨2, ![E, 1]⟩ (![0] : Fin 1 → Fin 2))
    (h0 : (⟨0, ![]⟩ : Shape).BroadcastsInDim ⟨1, ![E]⟩ (![] : Fin 0 → Fin 1))
    (h1 : (⟨0, ![]⟩ : Shape).BroadcastsInDim ⟨1, ![E]⟩ (![] : Fin 0 → Fin 1))
    (x : (⟨2, ![N, D]⟩ : Shape).Idx → α) (v : IVec ⟨1, ![E]⟩ 32) (e : Fin E) (k : Fin D) :
    Host.gather d x (broadcastInDim ⟨2, ![E, 1]⟩ (![0] : Fin 1 → Fin 2) hc
        (select (cmpi .slt v (broadcastInDim ⟨1, ![E]⟩ (![] : Fin 0 → Fin 1) h0 (constantI ⟨0, ![]⟩ 32 0#32)))
          (addi v (broadcastInDim ⟨1, ![E]⟩ (![] : Fin 0 → Fin 1) h1 (constantI ⟨0, ![]⟩ 32 (BitVec.ofNat 32 N)))) v)) (ix2 e k)
      = x (ix2 ⟨rowOf N (v (ix1 e)), rowOf_lt hN _⟩ k) := by
  rw [gather_rows_apply hN d hoff hcoll hob hsb hsim hivd hss]
  simp only [bcast_col_apply, wrap_select_apply, rowOf]

theorem take_vec_apply {α : Type} {N E : ℕ} (hN : 0 < N)
    (d : GatherDims ⟨1, ![N]⟩ ⟨2, ![E, 1]⟩ ⟨1, ![E]⟩)
    (hoff : d.offsetDims = []) (hcoll : d.collapsedSliceDims = [0]) (hob : d.operandBatchingDims = [])
    (hsb : d.startIndicesBatchingDims = []) (hsim : d.startIndexMap = [0]) (hivd : d.indexVectorDim = 1)
    (hc : (⟨1, ![E]⟩ : Shape).BroadcastsInDim ⟨2, ![E, 1]⟩ (![0] : Fin 1 → Fin 2))
    (h0 : (⟨0, ![]⟩ : Shape).BroadcastsInDim ⟨1, ![E]⟩ (![] : Fin 0 → Fin 1))
    (h1 : (⟨0, ![]⟩ : Shape).BroadcastsInDim ⟨1, ![E]⟩ (![] : Fin 0 → Fin 1))
    (x : (⟨1, ![N]⟩ : Shape).Idx → α) (v : IVec ⟨1, ![E]⟩ 32) (e : Fin E) :
    Host.gather d x (broadcastInDim ⟨2, ![E, 1]⟩ (![0] : Fin 1 → Fin 2) hc
        (select (cmpi .slt v (broadcastInDim ⟨1, ![E]⟩ (![] : Fin 0 → Fin 1) h0 (constantI ⟨0, ![]⟩ 32 0#32)))
          (addi v (broadcastInDim ⟨1, ![E]⟩ (![] : Fin 0 → Fin 1) h1 (constantI ⟨0, ![]⟩ 32 (BitVec.ofNat 32 N)))) v)) (ix1 e)
      = x (ix1 ⟨rowOf N (v (ix1 e)), rowOf_lt hN _⟩) := by
  rw [gather_vec_apply hN d hcoll hob hsim hivd]
  simp only [bcast_col_apply, wrap_select_apply, rowOf]

end Cert.Bridge

end
-- ==== Proof.Val.Laws.lean ====
import proofs.«419602_j28836410425874_3_alg».proof.Proof.Val.SortSum

noncomputable section

namespace Cert.Bridge

open Idealize.ShloMosaic

theorem agg_law {E N : ℕ} (σ : Fin E → Fin E) (hσ : Function.Bijective σ) (dstw srcw : Fin E → BitVec 32)
    (row : BitVec 32 → Fin N) (Hf dvf : Fin N → EReal) (hdv : ∀ r, ∃ ρ : ℝ, 0 ≤ ρ ∧ dvf r = (ρ : EReal))
    (i : Fin N) (hrow : ∀ e, (dstw e).toInt = (i.val : ℤ) → row (dstw e) = i) (z : EReal)
    (hz : z = ((0 : ℝ) : EReal)) :
    (z + ∑ e ∈ Finset.univ.filter (fun e : Fin E => (dstw (σ e)).toInt = (i.val : ℤ)),
        Hf (row (srcw (σ e))) * dvf (row (srcw (σ e)))) * dvf i
      = z + ∑ e ∈ Finset.univ.filter (fun e : Fin E => (dstw e).toInt = (i.val : ℤ)),
          Hf (row (srcw e)) * (dvf (row (srcw e)) * dvf (row (dstw e))) := by
  obtain ⟨ρ, hρ, hdi⟩ := hdv i
  subst hz
  rw [zero_add_ereal, zero_add_ereal,
    sum_filter_comp_bij σ hσ (fun e => (dstw e).toInt = (i.val : ℤ)) (fun e => Hf (row (srcw e)) * dvf (row (srcw e))),
    hdi, sum_mul_coe_nonneg _ _ ρ hρ]
  refine Finset.sum_congr rfl fun e he => ?_
  rw [hrow e (Finset.mem_filter.mp he).2, hdi, mul_assoc]

theorem hot_sum_law {n : ℕ} (p : Fin n → Prop) [DecidablePred p] (x : Fin n → EReal) (one zero : EReal)
    (h1 : one = ((1 : ℝ) : EReal)) (h0 : zero = ((0 : ℝ) : EReal)) :
    ∑ k : Fin n, (if p k then one else zero) * x k = ∑ k ∈ Finset.univ.filter p, x k := by
  subst h1 h0
  rw [Finset.sum_filter]
  exact Finset.sum_congr rfl fun k _ => by rw [ite_mul, one_mul_ereal, zero_mul_ereal]

theorem word_eq_ofNat_iff_toInt (w : BitVec 32) (g : ℕ) (hg : g < 2 ^ 31) :
    w = BitVec.ofNat 32 g ↔ w.toInt = (g : ℤ) :=
  ⟨fun h => by rw [h, StableHlo.Predicate.toInt_ofNat_small g hg],
    fun h => BitVec.eq_of_toInt_eq (h.trans (StableHlo.Predicate.toInt_ofNat_small g hg).symm)⟩

end Cert.Bridge
-- ==== Proof.Val.KLayer.lean ====
import proofs.«419602_j28836410425874_3_alg».proof.Proof.Val.RefSide
import proofs.«419602_j28836410425874_3_alg».proof.Proof.Val.ScatterRead
import proofs.«419602_j28836410425874_3_alg».proof.Proof.Val.SortSum
import proofs.«419602_j28836410425874_3_alg».proof.Proof.Val.GatherRead
import proofs.«419602_j28836410425874_3_alg».proof.Proof.Val.Laws
import proofs.«419602_j28836410425874_3_alg».proof.Proof.Val.HostTerms
import proofs.«419602_j28836410425874_3_alg».proof.Proof.Gen.KernelIdeal

noncomputable section
namespace Cert.Bridge
open Idealize.ShloMosaic Idealize.ShloMosaic.TcCoe Idealize.ShloMosaic.ValueIdx
open Cert.ReferenceIdeal Cert.ReferenceIdeal.Gen
open Cert.KernelIdeal.Val
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

def nodeRow (w : BitVec 32) : Fin 50000 := ⟨rowOf 50000 w, rowOf_lt (by decide) w⟩

theorem nodeRow_of_toInt (w : BitVec 32) (i : Fin 50000) (h : w.toInt = (i.val : ℤ)) : nodeRow w = i := by
  have hi := i.isLt
  refine Fin.ext ?_
  show rowOf 50000 w = i.val
  rw [rowOf_of_inRange 50000 w (by omega) (by omega), h]
  exact Int.toNat_natCast _

theorem ref_dinv_nonneg (dst : (⟨S800000, .i32⟩ : BufTy).Contents (Elt Ideal)) (r : Fin 50000) :
    ∃ ρ : ℝ, 0 ≤ ρ ∧ Ref.dinvOf (F := Ideal) dst (ix1 r) = (ρ : EReal) := by
  refine rsqrt_count_nonneg_real _ (ix1 r)
    (Finset.univ.filter fun e : Fin 800000 => (dst (ix1 e)).toInt = (r.val : ℤ)) ?_
  rw [addf_apply]
  unfold Ref.degOf
  rw [scatterAdd_vec_apply scatter_S50000_S800000x1_S800000_n_0_0_1 rfl rfl rfl rfl]
  simp only [Ref.splat_apply bcast_S_S50000, Ref.splat_apply bcast_S_S800000, Ref.asCol_apply bcast_S800000_S800000x1_0,
    constant_apply, ofBits_one_f32, ofBits_zero_f32']

theorem ref_layerS_edges (X : (⟨S50000x96, .f32⟩ : BufTy).Contents (Elt Ideal)) (W : (⟨S96x96, .f32⟩ : BufTy).Contents (Elt Ideal))
    (src dst : (⟨S800000, .i32⟩ : BufTy).Contents (Elt Ideal)) (i : Fin 50000) (k : Fin 96) :
    Ref.layerS (F := Ideal) X W src dst (ix2 i k)
      = ((0 : ℝ) : EReal)
          + ∑ e ∈ Finset.univ.filter (fun e : Fin 800000 => (dst (ix1 e)).toInt = (i.val : ℤ)),
              (∑ j : Fin 96, X (ix2 (nodeRow (src (ix1 e))) j) * W (ix2 j k))
                * (Ref.dinvOf (F := Ideal) dst (ix1 (nodeRow (src (ix1 e))))
                    * Ref.dinvOf (F := Ideal) dst (ix1 (nodeRow (dst (ix1 e))))) := by
  unfold Ref.layerS
  rw [scatterAdd_rows_apply scatter_S50000x96_S800000x1_S800000x96_1_0_0_1 rfl rfl rfl rfl]
  rw [Ref.splat_apply, constant_apply, ofBits_zero_f32']
  simp only [Ref.asCol_apply bcast_S800000_S800000x1_0]
  refine congrArg _ (Finset.sum_congr rfl fun e _ => ?_)
  rw [Ref.layerS_upd_apply]
  unfold Ref.gathH Ref.gathDinv Ref.wrapN Ref.layerH
  rw [take_rows_apply (by decide) gather_S50000x96_S800000x1_S800000x96_1_0_n_n_0_1_196 rfl rfl rfl rfl rfl rfl rfl,
    take_vec_apply (by decide) gather_S50000_S800000x1_S800000_n_0_n_n_0_1_1 rfl rfl rfl rfl rfl rfl,
    take_vec_apply (by decide) gather_S50000_S800000x1_S800000_n_0_n_n_0_1_1 rfl rfl rfl rfl rfl rfl,
    Ref.matmulH_apply]
  rfl

theorem kDinv2d_apply (a1 : (⟨S2x800000, .i32⟩ : BufTy).Contents (Elt Ideal)) (r : Fin 50000) (u : Fin 1) :
    kDinv2d (F := Ideal) a1 (ix2 r u) = Ref.dinvOf (F := Ideal) (Ref.dstOf (F := Ideal) a1) (ix1 r) :=
  shapeCast_a_a1_apply (kDinv (F := Ideal) a1) _ r u

theorem kBias2d_apply (b : (⟨S96, .f32⟩ : BufTy).Contents (Elt Ideal)) (u : Fin 1) (k : Fin 96) :
    kBias2d (F := Ideal) b (ix2 u k) = b (ix1 k) :=
  shapeCast_a_1a_apply b _ u k

theorem kSorted_perm (a1 : (⟨S2x800000, .i32⟩ : BufTy).Contents (Elt Ideal)) :
    ∃ σ : Fin 800000 → Fin 800000, Function.Bijective σ
      ∧ (∀ e : Fin 800000, kDstS (F := Ideal) a1 (ix1 e) = Ref.dstOf (F := Ideal) a1 (ix1 (σ e)))
      ∧ (∀ e : Fin 800000, kSrcS (F := Ideal) a1 (ix1 e) = Ref.srcOf (F := Ideal) a1 (ix1 (σ e))) := by
  obtain ⟨σ, hσ, hord, -⟩ :=
    argsort_perm (n := 800000) (by norm_num) Cert.KernelIdeal.comparator_i32_i32_d0 (kDst (F := Ideal) a1)
  have hpos : ∀ e : Fin 800000,
      (⟨rowOf 800000 (kOrder (F := Ideal) a1 (ix1 e)), rowOf_lt (by decide) _⟩ : Fin 800000) = σ e := by
    intro e
    refine Fin.ext ?_
    show rowOf 800000 (kOrder (F := Ideal) a1 (ix1 e)) = (σ e).val
    have hw : kOrder (F := Ideal) a1 (ix1 e) = BitVec.ofNat 32 (σ e).val := hord e
    have hlt := (σ e).isLt
    obtain ⟨h0, h1⟩ := ofNat_toInt_of_lt (n := 800000) (k := (σ e).val) (by norm_num) hlt
    rw [hw, rowOf_of_inRange 800000 _ h0 (by omega), h1]
  have take : ∀ (v : IVec S800000 32) (e : Fin 800000),
      Host.gather Cert.KernelIdeal.gather_S800000_S800000x1_S800000_n_0_n_n_0_1_1 v
        (broadcastInDim S800000x1 ![0] bcast_S800000_S800000x1_0 (kWrapE (kOrder (F := Ideal) a1))) (ix1 e) = v (ix1 (σ e)) := by
    intro v e
    unfold kWrapE
    rw [take_vec_apply (by decide) Cert.KernelIdeal.gather_S800000_S800000x1_S800000_n_0_n_n_0_1_1 rfl rfl rfl rfl rfl rfl, hpos]
  exact ⟨σ, hσ, fun e => take _ e, fun e => take _ e⟩

theorem kAgg_apply (hs : (⟨S50000x96, .bf16⟩ : BufTy).Contents (Elt Ideal)) (a1 : (⟨S2x800000, .i32⟩ : BufTy).Contents (Elt Ideal))
    (i : Fin 50000) (k : Fin 96) :
    kAgg (F := Ideal) hs a1 (ix2 i k)
      = ((0 : ℝ) : EReal)
          + ∑ e ∈ Finset.univ.filter (fun e : Fin 800000 => (kDstS (F := Ideal) a1 (ix1 e)).toInt = (i.val : ℤ)),
              hs (ix2 (nodeRow (kSrcS (F := Ideal) a1 (ix1 e))) k) := by
  unfold kAgg
  rw [scatterAdd_rows_apply Cert.KernelIdeal.scatter_S50000x96_S800000x1_S800000x96_1_0_0_1 rfl rfl rfl rfl]
  rw [Ref.splat_apply, constant_apply, ofBits_zero_f32']
  simp only [Ref.asCol_apply bcast_S800000_S800000x1_0, extf_apply]
  refine congrArg _ (Finset.sum_congr rfl fun e _ => ?_)
  unfold kWrapN
  rw [take_rows_apply (by decide) Cert.KernelIdeal.gather_S50000x96_S800000x1_S800000x96_1_0_n_n_0_1_196
    rfl rfl rfl rfl rfl rfl rfl]
  rfl

theorem layer_bridge (X : FVec Ideal S50000x96 .f32) (W : FVec Ideal S96x96 .f32) (b : FVec Ideal S96 .f32)
    (a1 : IVec S2x800000 32) (hm : FVec Ideal S50000x96 .f32) (hs : FVec Ideal S50000x96 .bf16)
    (out : FVec Ideal S50000x96 .f32)
    (hh : ∀ (i : Fin 50000) (k : Fin 96), hm (ix2 i k) = ∑ j : Fin 96, X (ix2 i j) * W (ix2 j k))
    (hhs : ∀ (i : Fin 50000) (k : Fin 96),
      hs (ix2 i k) = (∑ j : Fin 96, X (ix2 i j) * W (ix2 j k)) * kDinv2d (F := Ideal) a1 (ix2 i 0))
    (hout : ∀ (i : Fin 50000) (k : Fin 96),
      out (ix2 i k)
        = max ((kAgg (F := Ideal) hs a1 (ix2 i k) * kDinv2d (F := Ideal) a1 (ix2 i 0)
                + hm (ix2 i k) * (kDinv2d (F := Ideal) a1 (ix2 i 0) * kDinv2d (F := Ideal) a1 (ix2 i 0)))
              + kBias2d (F := Ideal) b (ix2 0 k))
            (Ideal.ofBits .f32 0x00000000#32)) :
    out = Ref.layer (F := Ideal) X W b (Ref.srcOf (F := Ideal) a1) (Ref.dstOf (F := Ideal) a1) := by
  funext j
  obtain ⟨i, k, rfl⟩ : ∃ (i : Fin 50000) (k : Fin 96), j = ix2 i k := ⟨j 0, j 1, eq_ix2 j⟩
  obtain ⟨σ, hσ, hdS, hsS⟩ := kSorted_perm a1
  have key := agg_law σ hσ (fun e => Ref.dstOf (F := Ideal) a1 (ix1 e)) (fun e => Ref.srcOf (F := Ideal) a1 (ix1 e)) nodeRow
    (fun r => ∑ j : Fin 96, X (ix2 r j) * W (ix2 j k))
    (fun r => Ref.dinvOf (F := Ideal) (Ref.dstOf (F := Ideal) a1) (ix1 r))
    (fun r => ref_dinv_nonneg _ r) i (fun e h => nodeRow_of_toInt _ i h) ((0 : ℝ) : EReal) rfl
  rw [hout i k, Ref.layer_apply, kAgg_apply, ref_layerS_edges, kBias2d_apply, hh i k]
  simp only [Ref.layerH, Ref.matmulH_apply, hdS, hsS, hhs, kDinv2d_apply]
  rw [key]

end Cert.Bridge
-- ==== Proof.Val.KPool.lean ====
import proofs.«419602_j28836410425874_3_alg».proof.Proof.Val.KLayer
import proofs.«419602_j28836410425874_3_alg».proof.Proof.Val.ScatterRead
import proofs.«419602_j28836410425874_3_alg».proof.Proof.Val.SortSum
import proofs.«419602_j28836410425874_3_alg».proof.Proof.Val.Laws
import proofs.«419602_j28836410425874_3_alg».proof.Proof.Val.HostTerms

noncomputable section

namespace Cert.Bridge

open Idealize.ShloMosaic Idealize.ShloMosaic.ValueIdx
open Cert.KernelIdeal Cert.KernelIdeal.Val
open scoped BigOperators

variable [Cert.KernelIdeal.Facts₀]

theorem batch2d_apply (a2 : IVec S50000 32) (n : Fin 50000) (u : Fin 1) :
    kBatch2d (F := Ideal) a2 (ix2 n u) = a2 (ix1 n) :=
  shapeCast_a_a1_apply a2 _ n u

theorem bfc2d_apply (bfc : FVec Ideal S10 .f32) (u : Fin 1) (q : Fin 10) :
    kBfc2d (F := Ideal) bfc (ix2 u q) = bfc (ix1 q) :=
  shapeCast_a_1a_apply bfc _ u q

theorem poolSum_apply (X : FVec Ideal S50000x96 .f32) (a2 : IVec S50000 32) (g : Fin 64) (j : Fin 96) :
    Ref.poolSum (F := Ideal) X a2 (ix2 g j)
      = Ideal.ofBits .f32 0x00000000#32
        + ∑ n ∈ Finset.univ.filter (fun n : Fin 50000 => (a2 (ix1 n)).toInt = (g.val : ℤ)), X (ix2 n j) := by
  unfold Ref.poolSum
  rw [scatterAdd_rows_apply _ rfl rfl rfl rfl, Ref.splat_apply, constant_apply]
  refine congrArg (Ideal.ofBits .f32 0x00000000#32 + ·) (Finset.sum_congr (Finset.filter_congr fun n _ => ?_) fun _ _ => rfl)
  rw [Ref.asCol_apply]

theorem poolCnt_apply (a2 : IVec S50000 32) (g : Fin 64) :
    Ref.poolCnt (F := Ideal) a2 (ix1 g)
      = Ideal.ofBits .f32 0x00000000#32
        + ∑ n ∈ Finset.univ.filter (fun n : Fin 50000 => (a2 (ix1 n)).toInt = (g.val : ℤ)), Ideal.ofBits .f32 0x3F800000#32 := by
  unfold Ref.poolCnt
  rw [scatterAdd_vec_apply _ rfl rfl rfl rfl, Ref.splat_apply, constant_apply]
  refine congrArg (Ideal.ofBits .f32 0x00000000#32 + ·) (Finset.sum_congr (Finset.filter_congr fun n _ => ?_) fun n _ => ?_)
  · rw [Ref.asCol_apply]
  · rw [Ref.splat_apply, constant_apply]

theorem hot_sum_eq (a2 : IVec S50000 32) (x : Fin 50000 → EReal) (g : Fin 64) :
    ∑ n : Fin 50000, (if kBatch2d (F := Ideal) a2 (ix2 n 0) = BitVec.ofNat 32 g.val then ((1 : ℝ) : EReal) else ((0 : ℝ) : EReal)) * x n
      = ∑ n ∈ Finset.univ.filter (fun n : Fin 50000 => (a2 (ix1 n)).toInt = (g.val : ℤ)), x n := by
  refine (hot_sum_law (fun n : Fin 50000 => kBatch2d (F := Ideal) a2 (ix2 n 0) = BitVec.ofNat 32 g.val) x _ _ rfl rfl).trans ?_
  refine Finset.sum_congr (Finset.filter_congr fun n _ => ?_) fun _ _ => rfl
  rw [batch2d_apply, word_eq_ofNat_iff_toInt _ _ (by have := g.isLt; omega)]

theorem pool_bridge (X : FVec Ideal S50000x96 .f32) (a2 : IVec S50000 32) (Wfc : FVec Ideal S96x10 .f32)
    (bfc : FVec Ideal S10 .f32) (out : FVec Ideal S64x10 .f32)
    (hout : ∀ (g : Fin 64) (q : Fin 10), out (ix2 g q) =
      (∑ j : Fin 96, Ideal.div
          (Ideal.ofBits .f32 0x00000000#32 + ∑ n : Fin 50000,
            (if kBatch2d (F := Ideal) a2 (ix2 n 0) = BitVec.ofNat 32 g.val then ((1 : ℝ) : EReal) else ((0 : ℝ) : EReal)) * X (ix2 n j))
          (max (Ideal.ofBits .f32 0x00000000#32 + ∑ n : Fin 50000,
            (if kBatch2d (F := Ideal) a2 (ix2 n 0) = BitVec.ofNat 32 g.val then ((1 : ℝ) : EReal) else ((0 : ℝ) : EReal)) * Ideal.ofBits .f32 0x3F800000#32)
            (Ideal.ofBits .f32 0x3F800000#32)) * Wfc (ix2 j q))
        + kBfc2d (F := Ideal) bfc (ix2 0 q)) :
    out = Ref.pool (F := Ideal) X a2 Wfc bfc := by
  funext j
  obtain ⟨g, q, rfl⟩ : ∃ (g : Fin 64) (q : Fin 10), j = ix2 g q := ⟨j 0, j 1, eq_ix2 j⟩
  rw [hout g q, Ref.pool_apply, bfc2d_apply, poolCnt_apply,
    hot_sum_eq a2 (fun _ => Ideal.ofBits .f32 0x3F800000#32) g]
  refine congrArg (· + bfc (ix1 q)) (Finset.sum_congr rfl fun jj _ => ?_)
  rw [poolSum_apply, hot_sum_eq a2 (fun n => X (ix2 n jj)) g]

end Cert.Bridge

end
-- ==== Proof.Val.Result.lean ====
import proofs.«419602_j28836410425874_3_alg».proof.Proof.KI.Tower
import proofs.«419602_j28836410425874_3_alg».proof.Proof.Val.KVal0
import proofs.«419602_j28836410425874_3_alg».proof.Proof.Val.KVal1
import proofs.«419602_j28836410425874_3_alg».proof.Proof.Val.KVal2
import proofs.«419602_j28836410425874_3_alg».proof.Proof.Val.KVal3
import proofs.«419602_j28836410425874_3_alg».proof.Proof.Val.KVal4
import proofs.«419602_j28836410425874_3_alg».proof.Proof.Val.HostRead
import proofs.«419602_j28836410425874_3_alg».proof.Proof.Val.KLayer
import proofs.«419602_j28836410425874_3_alg».proof.Proof.Val.KPool
import proofs.«419602_j28836410425874_3_alg».proof.Proof.Val.RefSide

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (c : Dev nD)

theorem a6_eq :
    (a6 m c : FVec Ideal S50000x96 .f32)
      = Cert.Bridge.Ref.layer (F := Ideal) (A0 m c) (A3 m c) (A4 m c) (Cert.Bridge.Ref.srcOf (A1 m c))
          (Cert.Bridge.Ref.dstOf (A1 m c)) := by
  refine Cert.Bridge.layer_bridge (A0 m c) (A3 m c) (A4 m c) (A1 m c) (a4 m c) (b4 m c) (a6 m c)
    (fun i k => ?_) (fun i k => ?_) (fun i k => ?_)
  · exact X3_arg0 m c ▸ X3_arg3 m c ▸ arrAt0_3_apply (atTc (X3 m)) c i k
  · exact X3_arg0 m c ▸ X3_arg3 m c ▸ X3_v12 m c ▸ arrAt0_4_apply (atTc (X3 m)) c i k
  · exact X5_v39 m c ▸ X5_v28_0 m c ▸ X5_v12 m c ▸ X5_v40 m c ▸ arrAt1_4_apply (atTc (X5 m)) c i k

theorem a9_eq :
    (a9 m c : FVec Ideal S50000x96 .f32)
      = Cert.Bridge.Ref.layer (F := Ideal) (a6 m c) (A5 m c) (A6 m c) (Cert.Bridge.Ref.srcOf (A1 m c))
          (Cert.Bridge.Ref.dstOf (A1 m c)) := by
  refine Cert.Bridge.layer_bridge (a6 m c) (A5 m c) (A6 m c) (A1 m c) (a7 m c) (b7 m c) (a9 m c)
    (fun i k => ?_) (fun i k => ?_) (fun i k => ?_)
  · exact X6_v41 m c ▸ X6_arg5 m c ▸ arrAt2_3_apply (atTc (X6 m)) c i k
  · exact X6_v41 m c ▸ X6_arg5 m c ▸ X6_v12 m c ▸ arrAt2_4_apply (atTc (X6 m)) c i k
  · exact X8_v53 m c ▸ X8_v42_0 m c ▸ X8_v12 m c ▸ X8_v54 m c ▸ arrAt3_4_apply (atTc (X8 m)) c i k

theorem a11_eq :
    (a11 m c : FVec Ideal S64x10 .f32)
      = Cert.Bridge.Ref.pool (F := Ideal) (a9 m c) (A2 m c) (A7 m c) (A8 m c) := by
  refine Cert.Bridge.pool_bridge (a9 m c) (A2 m c) (A7 m c) (A8 m c) (a11 m c) (fun g q => ?_)
  exact X10_v55 m c ▸ X10_v4 m c ▸ X10_arg7 m c ▸ X10_v56 m c ▸ arrAt4_4_apply (atTc (X10 m)) c g q

theorem result_eq
    (m' : (ℓ : Loc Cert.ReferenceIdeal.nD Cert.ReferenceIdeal.τ Cert.ReferenceIdeal.sig) → Buf (Elt Ideal) ℓ)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v109 (F := Ideal) m' c = a11 m c := by
  obtain ⟨h0, h1, h2, h3, h4, h5, h6, h7, h8⟩ := hag
  have e := Cert.Bridge.Ref.res_eq (F := Ideal) m' c
  rw [h0, h1, h2, h3, h4, h5, h6, h7, h8] at e
  refine e.trans ?_
  rw [a11_eq m c, a9_eq m c, a6_eq m c]

end Cert.KernelIdeal.Val

end
-- ==== Proof.lean ====
import proofs.«419602_j28836410425874_3_alg».proof.Defs
import proofs.«419602_j28836410425874_3_alg».proof.Proof.Gen.Kernel
import proofs.«419602_j28836410425874_3_alg».proof.Proof.Gen.KernelIdeal
import proofs.«419602_j28836410425874_3_alg».proof.Proof.Gen.ReferenceIdeal
import proofs.«419602_j28836410425874_3_alg».proof.Proof.Gen.Pre_finite_inputs
import proofs.«419602_j28836410425874_3_alg».proof.Proof.Gen.ReferenceIdeal.Run
import proofs.«419602_j28836410425874_3_alg».proof.Proof.K.Regs
import proofs.«419602_j28836410425874_3_alg».proof.Proof.KI.RunThm
import proofs.«419602_j28836410425874_3_alg».proof.Proof.Val.Result
import Idealize.ShloMosaic.Adequacy
import Idealize.ShloMosaic.Init

noncomputable section

namespace Cert.Proof

open Idealize.ShloMosaic Idealize.SL.Sem

section
open Idealize.ShloMosaic.TcCoe Idealize.SL Idealize.SL.BI Idealize.SL.BI.BIBase Idealize.SL.ProofMode Idealize.ShloMosaic.Rounds
open scoped Idealize.SL.BI
open Cert.Kernel Cert.Kernel.Gen Cert.Kernel.Fr

set_option backward.isDefEq.respectTransparency.types false in
/-- The word-level program ends with its arguments as launched: each region does, and the host stretches between them are pure. -/
theorem frame_k : Cert.frame_Kernel := fun m ρ _ =>
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp (MT nD τ sig Unit (Elt Bits) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Bits) ℕ (UR sig nD τ) ℕ)) ⊢ bigSep Finset.univ (fun _ : Dev nD => (BI.emp : sProp (MT nD τ sig Unit (Elt Bits) ℕ (UR sig nD τ) ℕ))) from by rw [BI.bigSep_emp_const])
      iempintro)
    (fun _ c => Rr c)
    (Pipeline.initEach L lv fun c => by
      iintro ⟨⟨-, HO, -, Hp, -⟩, -⟩
      imodintro
      isplitl [Hp]; · iexists _; iexact Hp
      iexists ∅; iexact HO)
    Rr_owes
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

end

theorem frame_ki : Cert.frame_KernelIdeal := fun m ρ _ =>
  (θ_run Cert.KernelIdeal.defs _ _).mono (fun _ h c => (h c).2) (Cert.KernelIdeal.Fr.run_valued m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same [64, 10] array: the last region leaves what the plain program's term denotes. -/
theorem algebraic : Cert.algebraic_KernelIdeal_ReferenceIdeal := by
  intro m ρ m' ρ' _ hagree
  refine ⟨fun c => Cert.KernelIdeal.Fr.a11 m c, Cert.KernelIdeal.Fr.run_valued m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Val.result_eq m c m' (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
